-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024x4096 .f32) (main_arg15 : FVec F S1024x4096 .f32) (main_arg16 : FVec F S1024 .f32) (main_arg17 : FVec F S1024 .f32) (main_arg18 : FVec F S1024 .f32) (main_v63 : IVec S_ 1) (main_v67 : IVec S_ 1) : IVec S_ 1 :=
  let main_v68 : IVec S_ 1 := andi main_v63 main_v67
  let main_v69 : FVec F S1024x4096 .f32 := Host.absf main_arg14
  let main_cst_26 : FVec F S_ .f32 := constant S_ .f32 0x7F800000#32
  let main_v70 : FVec F S1024x4096 .f32 := broadcastInDim S1024x4096 ![] bcast_S_S1024x4096 main_cst_26
  let main_v71 : IVec S1024x4096 1 := cmpf .olt main_v69 main_v70
  let main_c_27 : IVec S_ 1 := constantI S_ 1 1#1
  let main_v72 : IVec S_ 1 := (fun x v => Host.reduce IntOp.andi x v reducesTo_S1024x4096_S_d0_1 h_S_) main_v71 main_c_27
  let main_v73 : IVec S_ 1 := andi main_v68 main_v72
  let main_v74 : FVec F S1024x4096 .f32 := Host.absf main_arg15
  let main_cst_28 : FVec F S_ .f32 := constant S_ .f32 0x7F800000#32
  let main_v75 : FVec F S1024x4096 .f32 := broadcastInDim S1024x4096 ![] bcast_S_S1024x4096 main_cst_28
  let main_v76 : IVec S1024x4096 1 := cmpf .olt main_v74 main_v75
  let main_c_29 : IVec S_ 1 := constantI S_ 1 1#1
  let main_v77 : IVec S_ 1 := (fun x v => Host.reduce IntOp.andi x v reducesTo_S1024x4096_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S4096 .f32) (main_arg12 : FVec F S4096 .f32) (main_arg13 : FVec F S1024x4096 .f32) (main_arg14 : FVec F S1024x4096 .f32) (main_arg15 : FVec F S1024x4096 .f32) (main_arg16 : FVec F S1024 .f32) (main_arg17 : FVec F S1024 .f32) (main_arg18 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S1024x4096 .f32 := Host.absf main_arg13
  let main_cst_24 : FVec F S_ .f32 := constant S_ .f32 0x7F800000#32
  let main_v65 : FVec F S1024x4096 .f32 := broadcastInDim S1024x4096 ![] bcast_S_S1024x4096 main_cst_24
  let main_v66 : IVec S1024x4096 1 := cmpf .olt main_v64 main_v65
  let main_c_25 : IVec S_ 1 := constantI S_ 1 1#1
  let main_v67 : IVec S_ 1 := (fun x v => Host.reduce IntOp.andi x v reducesTo_S1024x4096_S_d0_1 h_S_) main_v66 main_c_25
  fn_part4 (F := F) main_arg14 main_arg15 main_arg16 main_arg17 main_arg18 main_v63 main_v67

def fn_part2 {F : FTy → Type} [FloatOps F] (main_arg7 : FVec F S4096x4096 .f32) (main_arg8 : FVec F S4096x4096 .f32) (main_arg9 : FVec F S4096x4096 .f32) (main_arg10 : FVec F S4096 .f32) (main_arg11 : FVec F S4096 .f32) (main_arg12 : FVec F S4096 .f32) (main_arg13 : FVec F S1024x4096 .f32) (main_arg14 : FVec F S1024x4096 .f32) (main_arg15 : FVec F S1024x4096 .f32) (main_arg16 : FVec F S1024 .f32) (main_arg17 : FVec F S1024 .f32) (main_arg18 : FVec F S1024 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_arg18 main_v48 main_v49 main_v50

def fn_part1 {F : FTy → Type} [FloatOps F] (main_arg4 : FVec F S4096 .f32) (main_arg5 : FVec F S4096 .f32) (main_arg6 : FVec F S4096 .f32) (main_arg7 : FVec F S4096x4096 .f32) (main_arg8 : FVec F S4096x4096 .f32) (main_arg9 : FVec F S4096x4096 .f32) (main_arg10 : FVec F S4096 .f32) (main_arg11 : FVec F S4096 .f32) (main_arg12 : FVec F S4096 .f32) (main_arg13 : FVec F S1024x4096 .f32) (main_arg14 : FVec F S1024x4096 .f32) (main_arg15 : FVec F S1024x4096 .f32) (main_arg16 : FVec F S1024 .f32) (main_arg17 : FVec F S1024 .f32) (main_arg18 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S4096x1024 .f32) (main_arg2 : FVec F S4096x1024 .f32) (main_arg3 : FVec F S4096x1024 .f32) (main_arg4 : FVec F S4096 .f32) (main_arg5 : FVec F S4096 .f32) (main_arg6 : FVec F S4096 .f32) (main_arg7 : FVec F S4096x4096 .f32) (main_arg8 : FVec F S4096x4096 .f32) (main_arg9 : FVec F S4096x4096 .f32) (main_arg10 : FVec F S4096 .f32) (main_arg11 : FVec F S4096 .f32) (main_arg12 : FVec F S4096 .f32) (main_arg13 : FVec F S1024x4096 .f32) (main_arg14 : FVec F S1024x4096 .f32) (main_arg15 : FVec F S1024x4096 .f32) (main_arg16 : FVec F S1024 .f32) (main_arg17 : FVec F S1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S1x4096 : Shape := ⟨2, ![1, 4096]⟩
abbrev S8192x4096 : Shape := ⟨2, ![8192, 4096]⟩
abbrev S512x512 : Shape := ⟨2, ![512, 512]⟩
abbrev S1x512 : Shape := ⟨2, ![1, 512]⟩
abbrev S1x1024 : Shape := ⟨2, ![1, 1024]⟩

abbrev nBuf : Space → Nat
  | .hbm => 31
  | .vmem => 51
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S8192x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S8192x4096, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg7_1 : Ref sig .tc := ⟨.vmem, 49, rfl⟩
abbrev cc2_scratch0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47

abbrev nD : Nat := 1
abbrev τ : Topo := Topo.v7x

variable {F : FTy → Type} [FloatOps F]

abbrev grid0 : Pipeline.Grid := ⟨3, ![16, 8, 2], ![false, false, false]⟩

def k0_cond2 (i : grid0.Coords) : BitVec 1 :=
  let arg2 : BitVec 32 := BitVec.ofNat 32 (i 2).val
  let c1_i32 : BitVec 32 := 1#32
  let v31 : BitVec 1 := Scalar.cmpi .eq arg2 c1_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![16, 8, 8], ![false, false, false]⟩

def k1_cond2 (i : grid1.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_14 : BitVec 32 := 0#32
  let v34 : BitVec 1 := Scalar.cmpi .ne v33 c0_i32_14
  v34

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![16, 2, 8], ![false, false, false]⟩

def k2_cond2 (i : grid2.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_14 : BitVec 32 := 0#32
  let v34 : BitVec 1 := Scalar.cmpi .ne v33 c0_i32_14
  v34

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, false]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S1024_S1x1024 : S1024.ShapeCasts S1x1024
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x1024.size a
  hwx0_0 : ∀ i : grid0.Coords, EltTy.bits .f32 = 32 ∨ (Rect.block (s := S8192x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x1024.size a
  hwx0_1 : ∀ i : grid0.Coords, EltTy.bits .f32 = 32 ∨ (Rect.block (s := S4096x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x1024.size a
  hwx0_2 : ∀ i : grid0.Coords, EltTy.bits .f32 = 32 ∨ (Rect.block (s := S4096x1024) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x1024.size a
  hwx0_3 : ∀ i : grid0.Coords, EltTy.bits .f32 = 32 ∨ (Rect.block (s := S4096x1024) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x4096.size a
  hwx0_7 : ∀ i : grid0.Coords, EltTy.bits .f32 = 32 ∨ (Rect.block (s := S8192x4096) S512x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x4096.size a
  hwx1_0 : ∀ i : grid1.Coords, EltTy.bits .f32 = 32 ∨ (Rect.block (s := S8192x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .f32 = 32 ∨ (Rect.block (s := S1x4096) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x4096.size a
  hwx1_6 : ∀ i : grid1.Coords, EltTy.bits .f32 = 32 ∨ (Rect.block (s := S1x4096) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S8192x4096.size a
  hwx1_7 : ∀ i : grid1.Coords, EltTy.bits .f32 = 32 ∨ (Rect.block (s := S8192x4096) S512x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x4096.size a
  hwx2_0 : ∀ i : grid2.Coords, EltTy.bits .f32 = 32 ∨ (Rect.block (s := S8192x4096) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S1024x4096.size a
  hwx2_1 : ∀ i : grid2.Coords, EltTy.bits .f32 = 32 ∨ (Rect.block (s := S1024x4096) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S1024x4096.size a
  hwx2_2 : ∀ i : grid2.Coords, EltTy.bits .f32 = 32 ∨ (Rect.block (s := S1024x4096) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S1024x4096.size a
  hwx2_3 : ∀ i : grid2.Coords, EltTy.bits .f32 = 32 ∨ (Rect.block (s := S1024x4096) S512x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x1024.size a
  hwx2_4 : ∀ i : grid2.Coords, EltTy.bits .f32 = 32 ∨ (Rect.block (s := S1x1024) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x1024.size a
  hwx2_5 : ∀ i : grid2.Coords, EltTy.bits .f32 = 32 ∨ (Rect.block (s := S1x1024) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x1024.size a
  hwx2_6 : ∀ i : grid2.Coords, EltTy.bits .f32 = 32 ∨ (Rect.block (s := S1x1024) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S8192x1024.size a
  hwx2_7 : ∀ i : grid2.Coords, EltTy.bits .f32 = 32 ∨ (Rect.block (s := S8192x1024) S512x512.size (cc2_transform_7 i) (hinb2_7 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v3) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v7) S512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v7) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S512x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v11) S512x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S4096x1024, .f32⟩
  | 2 => ⟨S4096x1024, .f32⟩
  | 3 => ⟨S4096x1024, .f32⟩
  | 4 => ⟨S4096, .f32⟩
  | 5 => ⟨S4096, .f32⟩
  | 6 => ⟨S4096, .f32⟩
  | 7 => ⟨S4096x4096, .f32⟩
  | 8 => ⟨S4096x4096, .f32⟩
  | 9 => ⟨S4096x4096, .f32⟩
  | 10 => ⟨S4096, .f32⟩
  | 11 => ⟨S4096, .f32⟩
  | 12 => ⟨S4096, .f32⟩
  | 13 => ⟨S1024x4096, .f32⟩
  | 14 => ⟨S1024x4096, .f32⟩
  | 15 => ⟨S1024x4096, .f32⟩
  | 16 => ⟨S1024, .f32⟩
  | 17 => ⟨S1024, .f32⟩
  | 18 => ⟨S1024, .f32⟩
  | 19 => ⟨S_, .f32⟩
  | 20 => ⟨S4096x1024, .f32⟩
  | 21 => ⟨S4096x1024, .f32⟩
  | 22 => ⟨S4096x1024, .f32⟩
  | 23 => ⟨S4096x1024, .f32⟩
  | 24 => ⟨S4096x1024, .i1⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096, .f32⟩
  | 37 => ⟨S4096, .f32⟩
  | 38 => ⟨S4096, .f32⟩
  | 39 => ⟨S4096, .f32⟩
  | 40 => ⟨S4096, .i1⟩
  | 41 => ⟨S4096, .f32⟩
  | 42 => ⟨S4096, .f32⟩
  | 43 => ⟨S4096, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S4096, .f32⟩
  | 51 => ⟨S1024x4096, .f32⟩
  | 52 => ⟨S8192x4096, .f32⟩
  | 53 => ⟨S1x4096, .f32⟩
  | 54 => ⟨S8192x4096, .f32⟩
  | 55 => ⟨S8192x4096, .f32⟩
  | 56 => ⟨S_, .f32⟩
  | 57 => ⟨S8192x4096, .f32⟩
  | 58 => ⟨S8192x4096, .f32⟩
  | 59 => ⟨S_, .f32⟩
  | 60 => ⟨S4096x4096, .f32⟩
  | 61 => ⟨S4096x4096, .f32⟩
  | 62 => ⟨S4096x4096, .f32⟩
  | 63 => ⟨S4096x4096, .f32⟩
  | 64 => ⟨S4096x4096, .i1⟩
  | 65 => ⟨S4096x4096, .f32⟩
  | 66 => ⟨S4096x4096, .f32⟩
  | 67 => ⟨S4096x4096, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S_, .f32⟩
  | 76 => ⟨S4096, .f32⟩
  | 77 => ⟨S4096, .f32⟩
  | 78 => ⟨S4096, .f32⟩
  | 79 => ⟨S4096, .f32⟩
  | 80 => ⟨S4096, .i1⟩
  | 81 => ⟨S4096, .f32⟩
  | 82 => ⟨S4096, .f32⟩
  | 83 => ⟨S4096, .f32⟩
  | 84 => ⟨S4096, .f32⟩
  | 85 => ⟨S4096, .f32⟩
  | 86 => ⟨S4096, .f32⟩
  | 87 => ⟨S4096, .f32⟩
  | 88 => ⟨S4096, .f32⟩
  | 89 => ⟨S4096, .f32⟩
  | 90 => ⟨S4096, .f32⟩
  | 91 => ⟨S4096x4096, .f32⟩
  | 92 => ⟨S8192x4096, .f32⟩
  | 93 => ⟨S1x4096, .f32⟩
  | 94 => ⟨S8192x4096, .f32⟩
  | 95 => ⟨S8192x4096, .f32⟩
  | 96 => ⟨S_, .f32⟩
  | 97 => ⟨S8192x4096, .f32⟩
  | 98 => ⟨S8192x4096, .f32⟩
  | 99 => ⟨S_, .f32⟩
  | 100 => ⟨S1024x4096, .f32⟩
  | 101 => ⟨S1024x4096, .f32⟩
  | 102 => ⟨S1024x4096, .f32⟩
  | 103 => ⟨S1024x4096, .f32⟩
  | 104 => ⟨S1024x4096, .i1⟩
  | 105 => ⟨S1024x4096, .f32⟩
  | 106 => ⟨S1024x4096, .f32⟩
  | 107 => ⟨S1024x4096, .f32⟩
  | 108 => ⟨S1024x4096, .f32⟩
  | 109 => ⟨S1024x4096, .f32⟩
  | 110 => ⟨S1024x4096, .f32⟩
  | 111 => ⟨S1024x4096, .f32⟩
  | 112 => ⟨S1024x4096, .f32⟩
  | 113 => ⟨S1024x4096, .f32⟩
  | 114 => ⟨S1024x4096, .f32⟩
  | 115 => ⟨S_, .f32⟩
  | 116 => ⟨S1024, .f32⟩
  | 117 => ⟨S1024, .f32⟩
  | 118 => ⟨S1024, .f32⟩
  | 119 => ⟨S1024, .f32⟩
  | 120 => ⟨S1024, .i1⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S8192x1024, .f32⟩

abbrev hbmTy0_1 (i : Nat) : BufTy := match i % 128 with
  | 0 => ⟨S1024, .f32⟩
  | 1 => ⟨S1024, .f32⟩
  | 2 => ⟨S1024, .f32⟩
  | 3 => ⟨S4096x1024, .f32⟩
  | 4 => ⟨S8192x1024, .f32⟩
  | 5 => ⟨S1x1024, .f32⟩
  | 6 => ⟨S8192x1024, .f32⟩
  | 7 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_call2_cst : Ref sig .tc := ⟨.hbm, 56, rfl⟩
abbrev main_call2_v0 : Ref sig .tc := ⟨.hbm, 57, rfl⟩
abbrev main_v11 : Ref sig .tc := ⟨.hbm, 58, rfl⟩
abbrev main_call3_cst : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_call4_cst : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_call5_cst : Ref sig .tc := ⟨.hbm, 96, rfl⟩
abbrev main_call5_v0 : Ref sig .tc := ⟨.hbm, 97, rfl⟩
abbrev main_v23 : Ref sig .tc := ⟨.hbm, 98, rfl⟩
abbrev main_call6_cst : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_call6_v5 : Ref sig .tc := ⟨.hbm, 105, rfl⟩
abbrev main_call6_v6 : Ref sig .tc := ⟨.hbm, 106, rfl⟩
abbrev main_call6_v7 : Ref sig .tc := ⟨.hbm, 107, rfl⟩
abbrev main_call6_v8 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_v24 : Ref sig .tc := ⟨.hbm, 112, rfl⟩
abbrev main_v25 : Ref sig .tc := ⟨.hbm, 113, rfl⟩
abbrev main_v26 : Ref sig .tc := ⟨.hbm, 114, rfl⟩
abbrev main_call7_cst : Ref sig .tc := ⟨.hbm, 115, rfl⟩
abbrev main_call7_v0 : Ref sig .tc := ⟨.hbm, 116, rfl⟩
abbrev main_call7_v1 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_v6 : Ref sig .tc := ⟨.hbm, 122, rfl⟩
abbrev main_call7_v7 : Ref sig .tc := ⟨.hbm, 123, rfl⟩
abbrev main_call7_v8 : Ref sig .tc := ⟨.hbm, 124, rfl⟩
abbrev main_call7_v9 : Ref sig .tc := ⟨.hbm, 125, rfl⟩
abbrev main_call7_v10 : Ref sig .tc := ⟨.hbm, 126, rfl⟩
abbrev main_call7_v11 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S_S4096 : S_.BroadcastsInDim S4096 (![] : Fin 0 → Fin S4096.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S_S1024x4096 : S_.BroadcastsInDim S1024x4096 (![] : Fin 0 → Fin S1024x4096.rank)
  bcast_S_S1024 : S_.BroadcastsInDim S1024 (![] : Fin 0 → Fin S1024.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.SameProgram.lean ====
import proofs.«128668_j3307124817925_1_alg».proof.Kernel
import proofs.«128668_j3307124817925_1_alg».proof.KernelIdeal
import proofs.«128668_j3307124817925_1_alg».proof.Proof.Gen.Kernel
import proofs.«128668_j3307124817925_1_alg».proof.Proof.Gen.KernelIdeal

noncomputable section

namespace Cert.Proof

open Idealize.ShloMosaic Idealize.SL.Sem

variable {F : FTy → Type} [FloatOps F]

-- The idealization rewrote nothing, so the two programs are one text: their kernel bodies agree label by label.
set_option maxHeartbeats 1600000 in
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl
  | 2, (t, s) => rfl

-- Hence the full body tables agree: the three regions' configurations are the same terms.
set_option maxHeartbeats 1600000 in
theorem defs_eq : Cert.Kernel.defs (F := F) = Cert.KernelIdeal.defs (F := F) := by
  unfold Cert.Kernel.defs Cert.KernelIdeal.defs
  rw [defs₀_eq]
  rfl

-- And so does @main, statement by statement.
set_option maxHeartbeats 1600000 in
theorem main_eq : Cert.Kernel.main (F := F) = Cert.KernelIdeal.main (F := F) := rfl

end Cert.Proof

end
-- ==== Proof.FrameIdeal.L0Setup.lean ====
import proofs.«128668_j3307124817925_1_alg».proof.Proof.Gen.KernelIdeal.Launch
import proofs.«128668_j3307124817925_1_alg».proof.Proof.Gen.KernelIdeal.Skeleton
import proofs.«128668_j3307124817925_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

-- Window w's block at point t, cut from the array the region finds.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

abbrev cond0_0 (i : grid0.Coords) : Prop := (Scalar.cmpi .ne (Scalar.extui (Scalar.cmpi .eq (BitVec.ofNat 32 (i 2).val) 0#32)) 0#32) = 1#1

-- The first guard holds exactly where the contraction's block index is 0,
theorem hcond0_0 : ∀ t : Fin cfg0.N, cond0_0 (grid0.coords t) ↔ t.val % 2 = 0 :=
  (by decide +kernel : ∀ t : Fin grid0.N, cond0_0 (grid0.coords t) ↔ t.val % 2 = 0)

abbrev cond0_1 (i : grid0.Coords) : Prop := k0_cond2 i = 1#1

-- and the second exactly where it is 1, the last of the 2 blocks.
theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel

theorem liveAt0_7 : ∀ t : Fin cfg0.N, cond0_1 (grid0.coords t) → cfg0.idle 7 (grid0.coords t) = false := by decide +kernel

abbrev VO0 : View sig .tc .vmem S512x512 .f32 := (Memref.whole cc0_stg7_0 : Memref sig .tc .vmem S512x512 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)

abbrev scM0 : Memref sig .tc .vmem S512x512 .f32 := Memref.whole cc0_scratch0
abbrev VS0 : View sig .tc .vmem S512x512 .f32 := scM0.view

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Layers

end
-- ==== Proof.FrameIdeal.L0RunA.lean ====
import proofs.«128668_j3307124817925_1_alg».proof.Proof.FrameIdeal.L0Setup

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at a contraction's first block: the accumulator is cleared, then the tile product is added.
set_option maxHeartbeats 4000000 in
noncomputable def kernelRun0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : cond0_0 i) (hc1 : ¬cond0_1 i)
    (x0 x1 x2 x3 : Vec F S512x512 .f32) (x4 x5 x6 : Vec F S1x512 .f32) :
    Σ' (L7 : List (View.Piece (Elt F) S512x512 .f32)), { LS : List (View.Piece (Elt F) S512x512 .f32) //
      ∀ (xi7 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS)) -∗ K ⟨⟩))
          ⊢ wp frame (wpE (defs₀ (F := F)) Variants.none c none) E (cc0__bayes_kernel i arg3 harg3 arg4 harg4 arg5 harg5 arg6 harg6 arg7 harg7 arg8 harg8 arg9 harg9 arg10 harg10 arg11 harg11) K } := by
  refine ⟨[], ?_, fun xi7 E K => ?run⟩
  case run =>
    simp only [cc0__bayes_kernel_eq_skeleton]; unfold cc0__bayes_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS

end Cert.KernelIdeal.Layers

end
-- ==== Proof.FrameIdeal.L0RunB.lean ====
import proofs.«128668_j3307124817925_1_alg».proof.Proof.FrameIdeal.L0RunA

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at a middle block: the tile product is added to what the accumulator held.
set_option maxHeartbeats 4000000 in
noncomputable def kernelRun0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬cond0_0 i) (hc1 : ¬cond0_1 i)
    (x0 x1 x2 x3 : Vec F S512x512 .f32) (x4 x5 x6 : Vec F S1x512 .f32) (xs : Vec F S512x512 .f32) :
    Σ' (L7 : List (View.Piece (Elt F) S512x512 .f32)), { LS : List (View.Piece (Elt F) S512x512 .f32) //
      ∀ (xi7 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS)) -∗ K ⟨⟩))
          ⊢ wp frame (wpE (defs₀ (F := F)) Variants.none c none) E (cc0__bayes_kernel i arg3 harg3 arg4 harg4 arg5 harg5 arg6 harg6 arg7 harg7 arg8 harg8 arg9 harg9 arg10 harg10 arg11 harg11) K } := by
  refine ⟨[], ?_, fun xi7 E K => ?run⟩
  case run =>
    simp only [cc0__bayes_kernel_eq_skeleton]; unfold cc0__bayes_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS

end Cert.KernelIdeal.Layers

end
-- ==== Proof.FrameIdeal.L0RunC.lean ====
import proofs.«128668_j3307124817925_1_alg».proof.Proof.FrameIdeal.L0RunB

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at the last block: the product is added, then the bias row and the rectifier applied and the output tile stored.
set_option maxHeartbeats 4000000 in
noncomputable def kernelRun0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬cond0_0 i) (hc1 : cond0_1 i)
    (x0 x1 x2 x3 : Vec F S512x512 .f32) (x4 x5 x6 : Vec F S1x512 .f32) (xs : Vec F S512x512 .f32) :
    Σ' (L7 : List (View.Piece (Elt F) S512x512 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc0__bayes_kernel i arg3 harg3 arg4 harg4 arg5 harg5 arg6 harg6 arg7 harg7 arg8 harg8 arg9 harg9 arg10 harg10 arg11 harg11) K } := by
  refine ⟨?_, ?_, fun E K => ?run⟩
  case run =>
    simp only [cc0__bayes_kernel_eq_skeleton]; unfold cc0__bayes_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS

end Cert.KernelIdeal.Layers

end
-- ==== Proof.FrameIdeal.L0Frame.lean ====
import proofs.«128668_j3307124817925_1_alg».proof.Proof.FrameIdeal.L0RunC

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

section
variable (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole)

theorem scover0_A (hc0 : cond0_0 i) (hc1 : ¬cond0_1 i)
    (x0 x1 x2 x3 : Vec F S512x512 .f32) (x4 x5 x6 : Vec F S1x512 .f32) (y : S512x512.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5 x6).2.1 S512x512.size (by sl_kernel_rfl) y

def sout0_A (hc0 : cond0_0 i) (hc1 : ¬cond0_1 i)
    (x0 x1 x2 x3 : Vec F S512x512 .f32) (x4 x5 x6 : Vec F S1x512 .f32) : Vec F S512x512 .f32 :=
  VS0.read (Elt F) (VS0.writes (Elt F) VS0.junk (kernelRun0_A c i arg3 harg3 arg4 harg4 arg5 harg5 arg6 harg6 arg7 harg7 arg8 harg8 arg9 harg9 arg10 harg10 arg11 harg11 hc0 hc1 x0 x1 x2 x3 x4 x5 x6).2.1)

theorem scover0_B (hc0 : ¬cond0_0 i) (hc1 : ¬cond0_1 i)
    (x0 x1 x2 x3 : Vec F S512x512 .f32) (x4 x5 x6 : Vec F S1x512 .f32) (xs : Vec F S512x512 .f32) (y : S512x512.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

def sout0_B (hc0 : ¬cond0_0 i) (hc1 : ¬cond0_1 i)
    (x0 x1 x2 x3 : Vec F S512x512 .f32) (x4 x5 x6 : Vec F S1x512 .f32) (xs : Vec F S512x512 .f32) : Vec F S512x512 .f32 :=
  VS0.read (Elt F) (VS0.writes (Elt F) VS0.junk (kernelRun0_B c i arg3 harg3 arg4 harg4 arg5 harg5 arg6 harg6 arg7 harg7 arg8 harg8 arg9 harg9 arg10 harg10 arg11 harg11 hc0 hc1 x0 x1 x2 x3 x4 x5 x6 xs).2.1)

theorem scover0_C (hc0 : ¬cond0_0 i) (hc1 : cond0_1 i)
    (x0 x1 x2 x3 : Vec F S512x512 .f32) (x4 x5 x6 : Vec F S1x512 .f32) (xs : Vec F S512x512 .f32) (y : S512x512.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

def sout0_C (hc0 : ¬cond0_0 i) (hc1 : cond0_1 i)
    (x0 x1 x2 x3 : Vec F S512x512 .f32) (x4 x5 x6 : Vec F S1x512 .f32) (xs : Vec F S512x512 .f32) : Vec F S512x512 .f32 :=
  VS0.read (Elt F) (VS0.writes (Elt F) VS0.junk (kernelRun0_C c i arg3 harg3 arg4 harg4 arg5 harg5 arg6 harg6 arg7 harg7 arg8 harg8 arg9 harg9 arg10 harg10 arg11 harg11 hc0 hc1 x0 x1 x2 x3 x4 x5 x6 xs).2.1)

theorem cover0_C_7 (hc0 : ¬cond0_0 i) (hc1 : cond0_1 i)
    (x0 x1 x2 x3 : Vec F S512x512 .f32) (x4 x5 x6 : Vec F S1x512 .f32) (xs : Vec F S512x512 .f32) (y : S512x512.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 x6 xs).1 S512x512.size (by sl_kernel_rfl) y

def out0_C_7 (hc0 : ¬cond0_0 i) (hc1 : cond0_1 i)
    (x0 x1 x2 x3 : Vec F S512x512 .f32) (x4 x5 x6 : Vec F S1x512 .f32) (xs : Vec F S512x512 .f32) : Vec F S512x512 .f32 :=
  VO0.read (Elt F) (VO0.writes (Elt F) VO0.junk (kernelRun0_C c i arg3 harg3 arg4 harg4 arg5 harg5 arg6 harg6 arg7 harg7 arg8 harg8 arg9 harg9 arg10 harg10 arg11 harg11 hc0 hc1 x0 x1 x2 x3 x4 x5 x6 xs).1)

end

def outIdle0 : Vec F S512x512 .f32 := VO0.read (Elt F) (VO0.writes (Elt F) VO0.junk [])

-- The output tile and the accumulator after each point, by recursion on the point: the accumulator is carried over.
def outsAt0 (c : Dev nD) : (n : ℕ) → n < cfg0.N → Vec F S512x512 .f32 × Vec F S512x512 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 2 = 0 then
      if h1 : (n + 1) % 2 = 1 then
        False.elim (by omega)
      else
        (outIdle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 2 = 1 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (h0 : t.val % 2 = 0) (h1 : ¬t.val % 2 = 1) :
    outsAt0 V c t.val t.isLt = (outIdle0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : ¬t.val % 2 = 1) :
    outsAt0 V c t.val t.isLt = (outIdle0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 2 = 0) (h1 : t.val % 2 = 1) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- Between two points the accumulator holds what the earlier one left.
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

-- The body's effect at every point, by the three cases of the contraction's block index.
set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 2 = 0
  · by_cases h1 : t.val % 2 = 1
    · exfalso; omega
    ·
      rw [Dat.leavesExact_idle (dat0 V c) 7 t (idleAt0_7 t (fun h => h1 ((hcond0_1 t).mp h))) (noFlush0_7 t (fun h => h1 ((hcond0_1 t).mp h)))]
      rw [outsAt0_A V c t h0 h1]
      unfold sout0_A; (try dsimp only)
      by_cases hz : t.val = 0
      case' pos => rw [PhiS0_castSucc V c t, PhiS0_zero V c _ _ hz, PhiA0_eq]
      case' neg => rw [PhiS0_castSucc V c t, PhiS0_pos V c _ _ hz]
      all_goals
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · first | iexact HS | (iexists _; iexact HS)
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scover0_A _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 2 = 1
    ·
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_C_7 sout0_C; (try dsimp only)
      by_cases hz : t.val = 0
      · exfalso; omega
      · rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS]; · iexact HS
        iintro ⟨H0, H1, H2, H3, H4, H5, H6, ⟨%e7, H7⟩, ⟨%es, HS⟩⟩
        isplitl [HS Hrest Hg]
        · isplitl [HS Hrest]
          · isplitl [HS]
            · unfold owns; iexists _; isplitr
              swap; · iexact HS
              ipureintro; exact View.read_writes_of_cover _ _ _ _ _ (scover0_C _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 _ _ _ _ _ _ _ _ _ _ _ _ _ _ _ _ _ _ _ _ _ _ _ _ _ _ _ _ _ _)
    ·
      rw [Dat.leavesExact_idle (dat0 V c) 7 t (idleAt0_7 t (fun h => h1 ((hcond0_1 t).mp h))) (noFlush0_7 t (fun h => h1 ((hcond0_1 t).mp h)))]
      rw [outsAt0_B V c t h0 h1]
      unfold sout0_B; (try dsimp only)
      by_cases hz : t.val = 0
      ·
        exfalso; omega
      ·
        rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scover0_B _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation0 (c : Dev nD) : BodyObligation (dat0 (F := F) V c) (defs₀ (F := F)) Variants.none () Set.univ := fun t => by
  rw [bigSep_W0, bigSep_W0]
  exact sound_body0 V c t

theorem Phi_first0 (c : Dev nD) : (dat0 V c).Φ 0 = Pipeline.ΦA spec0 c := rfl

theorem Phi_last0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, Hrest⟩, Hg⟩
  isplitl [HS Hrest]
  · isplitl [HS]
    · iexists _; iexact HS
    iexact Hrest
  iexact Hg

end

end Cert.KernelIdeal.Layers

end
-- ==== Proof.FrameIdeal.L1Setup.lean ====
import proofs.«128668_j3307124817925_1_alg».proof.Proof.Gen.KernelIdeal.Launch
import proofs.«128668_j3307124817925_1_alg».proof.Proof.Gen.KernelIdeal.Skeleton
import proofs.«128668_j3307124817925_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

-- Window w's block at point t, cut from the array the region finds.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

abbrev cond1_0 (i : grid1.Coords) : Prop := (Scalar.cmpi .ne (Scalar.extui (Scalar.cmpi .eq (BitVec.ofNat 32 (i 2).val) 0#32)) 0#32) = 1#1

-- The first guard holds exactly where the contraction's block index is 0,
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

-- and the second exactly where it is 7, the last of the 8 blocks.
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl

theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel

theorem liveAt1_7 : ∀ t : Fin cfg1.N, cond1_1 (grid1.coords t) → cfg1.idle 7 (grid1.coords t) = false := by decide +kernel

abbrev VO1 : View sig .tc .vmem S512x512 .f32 := (Memref.whole cc1_stg7_0 : Memref sig .tc .vmem S512x512 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x512 .f32 := win1_7.stage (cfg1.slots t 7)
abbrev hs1_7 (t : Fin cfg1.N) : (ms1_7 t).IsWhole := hstage1_7 ((cfg1.slots t 7).cast nbuf1_7)

abbrev scM1 : Memref sig .tc .vmem S512x512 .f32 := Memref.whole cc1_scratch0
abbrev VS1 : View sig .tc .vmem S512x512 .f32 := scM1.view

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Layers

end
-- ==== Proof.FrameIdeal.L1RunA.lean ====
import proofs.«128668_j3307124817925_1_alg».proof.Proof.FrameIdeal.L1Setup

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at a contraction's first block: the accumulator is cleared, then the tile product is added.
set_option maxHeartbeats 4000000 in
noncomputable def kernelRun1_A (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : cond1_0 i) (hc1 : ¬cond1_1 i)
    (x0 x1 x2 x3 : Vec F S512x512 .f32) (x4 x5 x6 : Vec F S1x512 .f32) :
    Σ' (L7 : List (View.Piece (Elt F) S512x512 .f32)), { LS : List (View.Piece (Elt F) S512x512 .f32) //
      ∀ (xi7 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS)) -∗ K ⟨⟩))
          ⊢ wp frame (wpE (defs₀ (F := F)) Variants.none c none) E (cc1__bayes_kernel i arg3 harg3 arg4 harg4 arg5 harg5 arg6 harg6 arg7 harg7 arg8 harg8 arg9 harg9 arg10 harg10 arg11 harg11) K } := by
  refine ⟨[], ?_, fun xi7 E K => ?run⟩
  case run =>
    simp only [cc1__bayes_kernel_eq_skeleton]; unfold cc1__bayes_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS

end Cert.KernelIdeal.Layers

end
-- ==== Proof.FrameIdeal.L1RunB.lean ====
import proofs.«128668_j3307124817925_1_alg».proof.Proof.FrameIdeal.L1RunA

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at a middle block: the tile product is added to what the accumulator held.
set_option maxHeartbeats 4000000 in
noncomputable def kernelRun1_B (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬cond1_0 i) (hc1 : ¬cond1_1 i)
    (x0 x1 x2 x3 : Vec F S512x512 .f32) (x4 x5 x6 : Vec F S1x512 .f32) (xs : Vec F S512x512 .f32) :
    Σ' (L7 : List (View.Piece (Elt F) S512x512 .f32)), { LS : List (View.Piece (Elt F) S512x512 .f32) //
      ∀ (xi7 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS)) -∗ K ⟨⟩))
          ⊢ wp frame (wpE (defs₀ (F := F)) Variants.none c none) E (cc1__bayes_kernel i arg3 harg3 arg4 harg4 arg5 harg5 arg6 harg6 arg7 harg7 arg8 harg8 arg9 harg9 arg10 harg10 arg11 harg11) K } := by
  refine ⟨[], ?_, fun xi7 E K => ?run⟩
  case run =>
    simp only [cc1__bayes_kernel_eq_skeleton]; unfold cc1__bayes_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS

end Cert.KernelIdeal.Layers

end
-- ==== Proof.FrameIdeal.L1RunC.lean ====
import proofs.«128668_j3307124817925_1_alg».proof.Proof.FrameIdeal.L1RunB

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at the last block: the product is added, then the bias row and the rectifier applied and the output tile stored.
set_option maxHeartbeats 4000000 in
noncomputable def kernelRun1_C (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬cond1_0 i) (hc1 : cond1_1 i)
    (x0 x1 x2 x3 : Vec F S512x512 .f32) (x4 x5 x6 : Vec F S1x512 .f32) (xs : Vec F S512x512 .f32) :
    Σ' (L7 : List (View.Piece (Elt F) S512x512 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc1__bayes_kernel i arg3 harg3 arg4 harg4 arg5 harg5 arg6 harg6 arg7 harg7 arg8 harg8 arg9 harg9 arg10 harg10 arg11 harg11) K } := by
  refine ⟨?_, ?_, fun E K => ?run⟩
  case run =>
    simp only [cc1__bayes_kernel_eq_skeleton]; unfold cc1__bayes_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS

end Cert.KernelIdeal.Layers

end
-- ==== Proof.FrameIdeal.L1Frame.lean ====
import proofs.«128668_j3307124817925_1_alg».proof.Proof.FrameIdeal.L1RunC

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

section
variable (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole)

theorem scover1_A (hc0 : cond1_0 i) (hc1 : ¬cond1_1 i)
    (x0 x1 x2 x3 : Vec F S512x512 .f32) (x4 x5 x6 : Vec F S1x512 .f32) (y : S512x512.Idx) :
    ∃ pc ∈ (kernelRun1_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4 x5 x6).2.1 S512x512.size (by sl_kernel_rfl) y

def sout1_A (hc0 : cond1_0 i) (hc1 : ¬cond1_1 i)
    (x0 x1 x2 x3 : Vec F S512x512 .f32) (x4 x5 x6 : Vec F S1x512 .f32) : Vec F S512x512 .f32 :=
  VS1.read (Elt F) (VS1.writes (Elt F) VS1.junk (kernelRun1_A c i arg3 harg3 arg4 harg4 arg5 harg5 arg6 harg6 arg7 harg7 arg8 harg8 arg9 harg9 arg10 harg10 arg11 harg11 hc0 hc1 x0 x1 x2 x3 x4 x5 x6).2.1)

theorem scover1_B (hc0 : ¬cond1_0 i) (hc1 : ¬cond1_1 i)
    (x0 x1 x2 x3 : Vec F S512x512 .f32) (x4 x5 x6 : Vec F S1x512 .f32) (xs : Vec F S512x512 .f32) (y : S512x512.Idx) :
    ∃ pc ∈ (kernelRun1_B c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

def sout1_B (hc0 : ¬cond1_0 i) (hc1 : ¬cond1_1 i)
    (x0 x1 x2 x3 : Vec F S512x512 .f32) (x4 x5 x6 : Vec F S1x512 .f32) (xs : Vec F S512x512 .f32) : Vec F S512x512 .f32 :=
  VS1.read (Elt F) (VS1.writes (Elt F) VS1.junk (kernelRun1_B c i arg3 harg3 arg4 harg4 arg5 harg5 arg6 harg6 arg7 harg7 arg8 harg8 arg9 harg9 arg10 harg10 arg11 harg11 hc0 hc1 x0 x1 x2 x3 x4 x5 x6 xs).2.1)

theorem scover1_C (hc0 : ¬cond1_0 i) (hc1 : cond1_1 i)
    (x0 x1 x2 x3 : Vec F S512x512 .f32) (x4 x5 x6 : Vec F S1x512 .f32) (xs : Vec F S512x512 .f32) (y : S512x512.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

def sout1_C (hc0 : ¬cond1_0 i) (hc1 : cond1_1 i)
    (x0 x1 x2 x3 : Vec F S512x512 .f32) (x4 x5 x6 : Vec F S1x512 .f32) (xs : Vec F S512x512 .f32) : Vec F S512x512 .f32 :=
  VS1.read (Elt F) (VS1.writes (Elt F) VS1.junk (kernelRun1_C c i arg3 harg3 arg4 harg4 arg5 harg5 arg6 harg6 arg7 harg7 arg8 harg8 arg9 harg9 arg10 harg10 arg11 harg11 hc0 hc1 x0 x1 x2 x3 x4 x5 x6 xs).2.1)

theorem cover1_C_7 (hc0 : ¬cond1_0 i) (hc1 : cond1_1 i)
    (x0 x1 x2 x3 : Vec F S512x512 .f32) (x4 x5 x6 : Vec F S1x512 .f32) (xs : Vec F S512x512 .f32) (y : S512x512.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs).1 S512x512.size (by sl_kernel_rfl) y

def out1_C_7 (hc0 : ¬cond1_0 i) (hc1 : cond1_1 i)
    (x0 x1 x2 x3 : Vec F S512x512 .f32) (x4 x5 x6 : Vec F S1x512 .f32) (xs : Vec F S512x512 .f32) : Vec F S512x512 .f32 :=
  VO1.read (Elt F) (VO1.writes (Elt F) VO1.junk (kernelRun1_C c i arg3 harg3 arg4 harg4 arg5 harg5 arg6 harg6 arg7 harg7 arg8 harg8 arg9 harg9 arg10 harg10 arg11 harg11 hc0 hc1 x0 x1 x2 x3 x4 x5 x6 xs).1)

end

def outIdle1 : Vec F S512x512 .f32 := VO1.read (Elt F) (VO1.writes (Elt F) VO1.junk [])

-- The output tile and the accumulator after each point, by recursion on the point: the accumulator is carried over.
def outsAt1 (c : Dev nD) : (n : ℕ) → n < cfg1.N → Vec F S512x512 .f32 × Vec F S512x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 8 = 0 then
      if h1 : (n + 1) % 8 = 7 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 8 = 7 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- Between two points the accumulator holds what the earlier one left.
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

-- The body's effect at every point, by the three cases of the contraction's block index.
set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · by_cases h1 : t.val % 8 = 7
    · exfalso; omega
    ·
      rw [Dat.leavesExact_idle (dat1 V c) 7 t (idleAt1_7 t (fun h => h1 ((hcond1_1 t).mp h))) (noFlush1_7 t (fun h => h1 ((hcond1_1 t).mp h)))]
      rw [outsAt1_A V c t h0 h1]
      unfold sout1_A; (try dsimp only)
      by_cases hz : t.val = 0
      case' pos => rw [PhiS1_castSucc V c t, PhiS1_zero V c _ _ hz, PhiA1_eq]
      case' neg => rw [PhiS1_castSucc V c t, PhiS1_pos V c _ _ hz]
      all_goals
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · first | iexact HS | (iexists _; iexact HS)
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scover1_A _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 8 = 7
    ·
      rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_C_7 sout1_C; (try dsimp only)
      by_cases hz : t.val = 0
      · exfalso; omega
      · rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS]; · iexact HS
        iintro ⟨H0, H1, H2, H3, H4, H5, H6, ⟨%e7, H7⟩, ⟨%es, HS⟩⟩
        isplitl [HS Hrest Hg]
        · isplitl [HS Hrest]
          · isplitl [HS]
            · unfold owns; iexists _; isplitr
              swap; · iexact HS
              ipureintro; exact View.read_writes_of_cover _ _ _ _ _ (scover1_C _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover1_C_7 _ _ _ _ _ _ _ _ _ _ _ _ _ _ _ _ _ _ _ _ _ _ _ _ _ _ _ _ _ _)
    ·
      rw [Dat.leavesExact_idle (dat1 V c) 7 t (idleAt1_7 t (fun h => h1 ((hcond1_1 t).mp h))) (noFlush1_7 t (fun h => h1 ((hcond1_1 t).mp h)))]
      rw [outsAt1_B V c t h0 h1]
      unfold sout1_B; (try dsimp only)
      by_cases hz : t.val = 0
      ·
        exfalso; omega
      ·
        rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scover1_B _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation1 (c : Dev nD) : BodyObligation (dat1 (F := F) V c) (defs₀ (F := F)) Variants.none () Set.univ := fun t => by
  rw [bigSep_W1, bigSep_W1]
  exact sound_body1 V c t

theorem Phi_first1 (c : Dev nD) : (dat1 V c).Φ 0 = Pipeline.ΦA spec1 c := rfl

theorem Phi_last1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 1024 := N_1; omega), PhiA1_eq]
  iintro ⟨⟨HS, Hrest⟩, Hg⟩
  isplitl [HS Hrest]
  · isplitl [HS]
    · iexists _; iexact HS
    iexact Hrest
  iexact Hg

end

end Cert.KernelIdeal.Layers

end
-- ==== Proof.FrameIdeal.L2Setup.lean ====
import proofs.«128668_j3307124817925_1_alg».proof.Proof.Gen.KernelIdeal.Launch
import proofs.«128668_j3307124817925_1_alg».proof.Proof.Gen.KernelIdeal.Skeleton
import proofs.«128668_j3307124817925_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

-- Window w's block at point t, cut from the array the region finds.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

end

abbrev cond2_0 (i : grid2.Coords) : Prop := (Scalar.cmpi .ne (Scalar.extui (Scalar.cmpi .eq (BitVec.ofNat 32 (i 2).val) 0#32)) 0#32) = 1#1

-- The first guard holds exactly where the contraction's block index is 0,
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

-- and the second exactly where it is 7, the last of the 8 blocks.
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl

theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel

theorem liveAt2_7 : ∀ t : Fin cfg2.N, cond2_1 (grid2.coords t) → cfg2.idle 7 (grid2.coords t) = false := by decide +kernel

abbrev VO2 : View sig .tc .vmem S512x512 .f32 := (Memref.whole cc2_stg7_0 : Memref sig .tc .vmem S512x512 .f32).view
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x512 .f32 := win2_7.stage (cfg2.slots t 7)
abbrev hs2_7 (t : Fin cfg2.N) : (ms2_7 t).IsWhole := hstage2_7 ((cfg2.slots t 7).cast nbuf2_7)

abbrev scM2 : Memref sig .tc .vmem S512x512 .f32 := Memref.whole cc2_scratch0
abbrev VS2 : View sig .tc .vmem S512x512 .f32 := scM2.view

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Layers

end
-- ==== Proof.FrameIdeal.L2RunA.lean ====
import proofs.«128668_j3307124817925_1_alg».proof.Proof.FrameIdeal.L2Setup

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at a contraction's first block: the accumulator is cleared, then the tile product is added.
set_option maxHeartbeats 4000000 in
noncomputable def kernelRun2_A (c : Dev nD) (i : grid2.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : cond2_0 i) (hc1 : ¬cond2_1 i)
    (x0 x1 x2 x3 : Vec F S512x512 .f32) (x4 x5 x6 : Vec F S1x512 .f32) :
    Σ' (L7 : List (View.Piece (Elt F) S512x512 .f32)), { LS : List (View.Piece (Elt F) S512x512 .f32) //
      ∀ (xi7 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS)) -∗ K ⟨⟩))
          ⊢ wp frame (wpE (defs₀ (F := F)) Variants.none c none) E (cc2__bayes_kernel i arg3 harg3 arg4 harg4 arg5 harg5 arg6 harg6 arg7 harg7 arg8 harg8 arg9 harg9 arg10 harg10 arg11 harg11) K } := by
  refine ⟨[], ?_, fun xi7 E K => ?run⟩
  case run =>
    simp only [cc2__bayes_kernel_eq_skeleton]; unfold cc2__bayes_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS

end Cert.KernelIdeal.Layers

end
-- ==== Proof.FrameIdeal.L2RunB.lean ====
import proofs.«128668_j3307124817925_1_alg».proof.Proof.FrameIdeal.L2RunA

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at a middle block: the tile product is added to what the accumulator held.
set_option maxHeartbeats 4000000 in
noncomputable def kernelRun2_B (c : Dev nD) (i : grid2.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬cond2_0 i) (hc1 : ¬cond2_1 i)
    (x0 x1 x2 x3 : Vec F S512x512 .f32) (x4 x5 x6 : Vec F S1x512 .f32) (xs : Vec F S512x512 .f32) :
    Σ' (L7 : List (View.Piece (Elt F) S512x512 .f32)), { LS : List (View.Piece (Elt F) S512x512 .f32) //
      ∀ (xi7 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS)) -∗ K ⟨⟩))
          ⊢ wp frame (wpE (defs₀ (F := F)) Variants.none c none) E (cc2__bayes_kernel i arg3 harg3 arg4 harg4 arg5 harg5 arg6 harg6 arg7 harg7 arg8 harg8 arg9 harg9 arg10 harg10 arg11 harg11) K } := by
  refine ⟨[], ?_, fun xi7 E K => ?run⟩
  case run =>
    simp only [cc2__bayes_kernel_eq_skeleton]; unfold cc2__bayes_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS

end Cert.KernelIdeal.Layers

end
-- ==== Proof.FrameIdeal.L2RunC.lean ====
import proofs.«128668_j3307124817925_1_alg».proof.Proof.FrameIdeal.L2RunB

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body at the last block: the product is added, then the bias row applied and the output tile stored.
set_option maxHeartbeats 4000000 in
noncomputable def kernelRun2_C (c : Dev nD) (i : grid2.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬cond2_0 i) (hc1 : cond2_1 i)
    (x0 x1 x2 x3 : Vec F S512x512 .f32) (x4 x5 x6 : Vec F S1x512 .f32) (xs : Vec F S512x512 .f32) :
    Σ' (L7 : List (View.Piece (Elt F) S512x512 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS)) -∗ K ⟨⟩))
          ⊢ wp frame (wpE (defs₀ (F := F)) Variants.none c none) E (cc2__bayes_kernel i arg3 harg3 arg4 harg4 arg5 harg5 arg6 harg6 arg7 harg7 arg8 harg8 arg9 harg9 arg10 harg10 arg11 harg11) K } := by
  refine ⟨?_, ?_, fun E K => ?run⟩
  case run =>
    simp only [cc2__bayes_kernel_eq_skeleton]; unfold cc2__bayes_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS

end Cert.KernelIdeal.Layers

end
-- ==== Proof.FrameIdeal.L2Frame.lean ====
import proofs.«128668_j3307124817925_1_alg».proof.Proof.FrameIdeal.L2RunC

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

section
variable (c : Dev nD) (i : grid2.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole)

theorem scover2_A (hc0 : cond2_0 i) (hc1 : ¬cond2_1 i)
    (x0 x1 x2 x3 : Vec F S512x512 .f32) (x4 x5 x6 : Vec F S1x512 .f32) (y : S512x512.Idx) :
    ∃ pc ∈ (kernelRun2_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun2_A c i arg3 harg3 arg4 harg4 arg5 harg5 arg6 harg6 arg7 harg7 arg8 harg8 arg9 harg9 arg10 harg10 arg11 harg11 hc0 hc1 x0 x1 x2 x3 x4 x5 x6).2.1 S512x512.size (by sl_kernel_rfl) y

def sout2_A (hc0 : cond2_0 i) (hc1 : ¬cond2_1 i)
    (x0 x1 x2 x3 : Vec F S512x512 .f32) (x4 x5 x6 : Vec F S1x512 .f32) : Vec F S512x512 .f32 :=
  VS2.read (Elt F) (VS2.writes (Elt F) VS2.junk (kernelRun2_A c i arg3 harg3 arg4 harg4 arg5 harg5 arg6 harg6 arg7 harg7 arg8 harg8 arg9 harg9 arg10 harg10 arg11 harg11 hc0 hc1 x0 x1 x2 x3 x4 x5 x6).2.1)

theorem scover2_B (hc0 : ¬cond2_0 i) (hc1 : ¬cond2_1 i)
    (x0 x1 x2 x3 : Vec F S512x512 .f32) (x4 x5 x6 : Vec F S1x512 .f32) (xs : Vec F S512x512 .f32) (y : S512x512.Idx) :
    ∃ pc ∈ (kernelRun2_B c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (kernelRun2_B c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

def sout2_B (hc0 : ¬cond2_0 i) (hc1 : ¬cond2_1 i)
    (x0 x1 x2 x3 : Vec F S512x512 .f32) (x4 x5 x6 : Vec F S1x512 .f32) (xs : Vec F S512x512 .f32) : Vec F S512x512 .f32 :=
  VS2.read (Elt F) (VS2.writes (Elt F) VS2.junk (kernelRun2_B c i arg3 harg3 arg4 harg4 arg5 harg5 arg6 harg6 arg7 harg7 arg8 harg8 arg9 harg9 arg10 harg10 arg11 harg11 hc0 hc1 x0 x1 x2 x3 x4 x5 x6 xs).2.1)

theorem scover2_C (hc0 : ¬cond2_0 i) (hc1 : cond2_1 i)
    (x0 x1 x2 x3 : Vec F S512x512 .f32) (x4 x5 x6 : Vec F S1x512 .f32) (xs : Vec F S512x512 .f32) (y : S512x512.Idx) :
    ∃ pc ∈ (kernelRun2_C c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

def sout2_C (hc0 : ¬cond2_0 i) (hc1 : cond2_1 i)
    (x0 x1 x2 x3 : Vec F S512x512 .f32) (x4 x5 x6 : Vec F S1x512 .f32) (xs : Vec F S512x512 .f32) : Vec F S512x512 .f32 :=
  VS2.read (Elt F) (VS2.writes (Elt F) VS2.junk (kernelRun2_C c i arg3 harg3 arg4 harg4 arg5 harg5 arg6 harg6 arg7 harg7 arg8 harg8 arg9 harg9 arg10 harg10 arg11 harg11 hc0 hc1 x0 x1 x2 x3 x4 x5 x6 xs).2.1)

theorem cover2_C_7 (hc0 : ¬cond2_0 i) (hc1 : cond2_1 i)
    (x0 x1 x2 x3 : Vec F S512x512 .f32) (x4 x5 x6 : Vec F S1x512 .f32) (xs : Vec F S512x512 .f32) (y : S512x512.Idx) :
    ∃ pc ∈ (kernelRun2_C c i arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 x5 x6 xs).1 S512x512.size (by sl_kernel_rfl) y

def out2_C_7 (hc0 : ¬cond2_0 i) (hc1 : cond2_1 i)
    (x0 x1 x2 x3 : Vec F S512x512 .f32) (x4 x5 x6 : Vec F S1x512 .f32) (xs : Vec F S512x512 .f32) : Vec F S512x512 .f32 :=
  VO2.read (Elt F) (VO2.writes (Elt F) VO2.junk (kernelRun2_C c i arg3 harg3 arg4 harg4 arg5 harg5 arg6 harg6 arg7 harg7 arg8 harg8 arg9 harg9 arg10 harg10 arg11 harg11 hc0 hc1 x0 x1 x2 x3 x4 x5 x6 xs).1)

end

def outIdle2 : Vec F S512x512 .f32 := VO2.read (Elt F) (VO2.writes (Elt F) VO2.junk [])

-- The output tile and the accumulator after each point, by recursion on the point: the accumulator is carried over.
def outsAt2 (c : Dev nD) : (n : ℕ) → n < cfg2.N → Vec F S512x512 .f32 × Vec F S512x512 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 8 = 0 then
      if h1 : (n + 1) % 8 = 7 then
        False.elim (by omega)
      else
        (outIdle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 8 = 7 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
      else
        (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (outIdle2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (outIdle2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- Between two points the accumulator holds what the earlier one left.
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

-- The body's effect at every point, by the three cases of the contraction's block index.
set_option maxHeartbeats 16000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val % 8 = 0
  · by_cases h1 : t.val % 8 = 7
    · exfalso; omega
    ·
      rw [Dat.leavesExact_idle (dat2 V c) 7 t (idleAt2_7 t (fun h => h1 ((hcond2_1 t).mp h))) (noFlush2_7 t (fun h => h1 ((hcond2_1 t).mp h)))]
      rw [outsAt2_A V c t h0 h1]
      unfold sout2_A; (try dsimp only)
      by_cases hz : t.val = 0
      case' pos => rw [PhiS2_castSucc V c t, PhiS2_zero V c _ _ hz, PhiA2_eq]
      case' neg => rw [PhiS2_castSucc V c t, PhiS2_pos V c _ _ hz]
      all_goals
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · first | iexact HS | (iexists _; iexact HS)
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 8 = 7
    ·
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_7 sout2_C; (try dsimp only)
      by_cases hz : t.val = 0
      · exfalso; omega
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS]; · iexact HS
        iintro ⟨H0, H1, H2, H3, H4, H5, H6, ⟨%e7, H7⟩, ⟨%es, HS⟩⟩
        isplitl [HS Hrest Hg]
        · isplitl [HS Hrest]
          · isplitl [HS]
            · unfold owns; iexists _; isplitr
              swap; · iexact HS
              ipureintro; exact View.read_writes_of_cover _ _ _ _ _ (scover2_C _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover2_C_7 _ _ _ _ _ _ _ _ _ _ _ _ _ _ _ _ _ _ _ _ _ _ _ _ _ _ _ _ _ _)
    ·
      rw [Dat.leavesExact_idle (dat2 V c) 7 t (idleAt2_7 t (fun h => h1 ((hcond2_1 t).mp h))) (noFlush2_7 t (fun h => h1 ((hcond2_1 t).mp h)))]
      rw [outsAt2_B V c t h0 h1]
      unfold sout2_B; (try dsimp only)
      by_cases hz : t.val = 0
      ·
        exfalso; omega
      ·
        rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS Hrest Hg]
        · isplitl [HS Hrest]
          · isplitl [HS]
            · unfold owns; iexists _; isplitr
              swap; · iexact HS
              ipureintro; exact View.read_writes_of_cover _ _ _ _ _ (scover2_B _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation2 (c : Dev nD) : BodyObligation (dat2 (F := F) V c) (defs₀ (F := F)) Variants.none () Set.univ := fun t => by
  rw [bigSep_W2, bigSep_W2]
  exact sound_body2 V c t

theorem Phi_first2 (c : Dev nD) : (dat2 V c).Φ 0 = Pipeline.ΦA spec2 c := rfl

theorem Phi_last2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega), PhiA2_eq]
  iintro ⟨⟨HS, Hrest⟩, Hg⟩
  isplitl [HS Hrest]
  · isplitl [HS]
    · iexists _; iexact HS
    iexact Hrest
  iexact Hg

end

end Cert.KernelIdeal.Layers

end
-- ==== Proof.FrameIdeal.Assemble.lean ====
import proofs.«128668_j3307124817925_1_alg».proof.Proof.FrameIdeal.L0Frame
import proofs.«128668_j3307124817925_1_alg».proof.Proof.FrameIdeal.L1Frame
import proofs.«128668_j3307124817925_1_alg».proof.Proof.FrameIdeal.L2Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

-- The buffers' contents at the boundaries of @main: host stretch, region, three times over.
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev admL : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) admL p) c
  | ⟨0, _⟩ => fun c => dat0 (V1 m) c
  | ⟨1, _⟩ => fun c => dat1 (V3 m) c
  | ⟨2, _⟩ => fun c => dat2 (V5 m) c
abbrev 𝒱L : Variants := Variants.none

abbrev LL : GSem nD τ sig → Finset Unit := fun _ => ∅
abbrev lvL : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱L LL lvL :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem noAlloc0 : (hostOps0 : List (HloOp τ sig (Elt F))).Forall fun op => op.fresh = ∅ := by
  simp only [List.Forall]; repeat' constructor
theorem noAlloc1 : (hostOps1 : List (HloOp τ sig (Elt F))).Forall fun op => op.fresh = ∅ := by
  simp only [List.Forall]; repeat' constructor
theorem noAlloc2 : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tn (c : Dev nD) : sProp 𝕄 := iprop(StableHlo.held (c : Thread nD τ) (Pipeline.ucRefs τ sig) (W6 m c) ∗ ∃ r, prngReg c r)

set_option backward.isDefEq.respectTransparency.types false in

def reg0 : Pipeline.RegionSeg (pcfgs (F := F)) admL (pdats m) () defs₀ 𝒱L LL lvL 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LL lvL 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admL (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admL (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) admL (pdats m) () defs₀ 𝒱L LL lvL 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ LL lvL 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admL (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admL (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) admL (pdats m) () defs₀ 𝒱L LL lvL 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ LL lvL 2 fun _ _ => rfl
  pre c := iprop(StableHlo.held (c : Thread nD τ) (Pipeline.ucRefs τ sig) (W5 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) admL (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi_last2 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admL (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsL : List (Pipeline.Seg (pcfgs (F := F)) admL (pdats m) () defs₀ 𝒱L LL lvL) :=
  [ .host (hseg hostOps0 hostOps0_sub noAlloc0 (W0 m)),
    .region (reg0 m),
    .host (hseg hostOps1 hostOps1_sub noAlloc1 (W2 m)),
    .region (reg1 m),
    .host (hseg hostOps2 hostOps2_sub noAlloc2 (W4 m)),
    .region (reg2 m) ]

theorem main_run (c : Dev nD) : main (F := F) c = Pipeline.Seg.run (segsL m) := (main_chain c).trans (by chain_rfl)

set_option backward.isDefEq.respectTransparency.types false in

-- Every weakly fair execution ends, with every buffer at the last boundary's contents.
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) admL (pdats m) () cellOf_inj emb₁ defs₀ 𝒱L LL lvL m ρ main (segsL m)
    (fun c Q => by rw [main_run m c])
    (by simp only [segsL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl, fun _ => .rfl⟩)
    (hinit := by
      refine Pipeline.initEach LL lvL fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Layers

end
-- ==== Proof.FrameIdeal.Kept.lean ====
import proofs.«128668_j3307124817925_1_alg».proof.Proof.FrameIdeal.Assemble

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev hostW0 : List (Ref sig .tc) := [main_v0, main_v1, main_v2]
theorem hostW0_sub : (hostOps0 : List (HloOp τ sig (Elt F))).Forall fun op => op.writes ⊆ (hostW0.map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩

theorem W1_keep (c : Dev nD) (r : Ref sig .tc) (h : r ∉ hostW0) : W1 m c (Proc.devRef .tc r) = W0 m c (Proc.devRef .tc r) :=
  StableHlo.after_of_writes_sub hostOps0 _ hostW0_sub h

theorem W2_keep (c : Dev nD) (r : Ref sig .tc) (h : r ≠ main_v3) : W2 m c (Proc.devRef .tc r) = W1 m c (Proc.devRef .tc r) := by
  by_cases hw : ∃ w, Pipeline.arrRef spec0 w = r
  · obtain ⟨w, rfl⟩ := hw
    rw [W2_arr m c w]
    have hin : (cfg0.win w).isOut = false := by
      revert h; fin_cases w <;> intro h <;> first | rfl | exact absurd rfl h
    exact ((dat0 (V1 m) c).arrAt_in w hin _).trans (A_eq0 (V1 m) c w)
  · exact W2_of_ne m c r fun w e => hw ⟨w, e⟩

abbrev hostW1 : List (Ref sig .tc) := [main_v4, main_v5, main_v6]
theorem hostW1_sub : (hostOps1 : List (HloOp τ sig (Elt F))).Forall fun op => op.writes ⊆ (hostW1.map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩

theorem W3_keep (c : Dev nD) (r : Ref sig .tc) (h : r ∉ hostW1) : W3 m c (Proc.devRef .tc r) = W2 m c (Proc.devRef .tc r) :=
  StableHlo.after_of_writes_sub hostOps1 _ hostW1_sub h

theorem W4_keep (c : Dev nD) (r : Ref sig .tc) (h : r ≠ main_v7) : W4 m c (Proc.devRef .tc r) = W3 m c (Proc.devRef .tc r) := by
  by_cases hw : ∃ w, Pipeline.arrRef spec1 w = r
  · obtain ⟨w, rfl⟩ := hw
    rw [W4_arr m c w]
    have hin : (cfg1.win w).isOut = false := by
      revert h; fin_cases w <;> intro h <;> first | rfl | exact absurd rfl h
    exact ((dat1 (V3 m) c).arrAt_in w hin _).trans (A_eq1 (V3 m) c w)
  · exact W4_of_ne m c r fun w e => hw ⟨w, e⟩

abbrev hostW2 : List (Ref sig .tc) := [main_v8, main_v9, main_v10]
theorem hostW2_sub : (hostOps2 : List (HloOp τ sig (Elt F))).Forall fun op => op.writes ⊆ (hostW2.map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩

theorem W5_keep (c : Dev nD) (r : Ref sig .tc) (h : r ∉ hostW2) : W5 m c (Proc.devRef .tc r) = W4 m c (Proc.devRef .tc r) :=
  StableHlo.after_of_writes_sub hostOps2 _ hostW2_sub h

theorem W6_keep (c : Dev nD) (r : Ref sig .tc) (h : r ≠ main_v11) : W6 m c (Proc.devRef .tc r) = W5 m c (Proc.devRef .tc r) := by
  by_cases hw : ∃ w, Pipeline.arrRef spec2 w = r
  · obtain ⟨w, rfl⟩ := hw
    rw [W6_arr m c w]
    have hin : (cfg2.win w).isOut = false := by
      revert h; fin_cases w <;> intro h <;> first | rfl | exact absurd rfl h
    exact ((dat2 (V5 m) c).arrAt_in w hin _).trans (A_eq2 (V5 m) c w)
  · exact W6_of_ne m c r fun w e => hw ⟨w, e⟩

-- No host stretch and no region writes an argument array, so each reaches the end as launched.
theorem W6_kept (c : Dev nD) (r : Ref sig .tc) (h0 : r ∉ hostW0) (h1 : r ≠ main_v3) (h2 : r ∉ hostW1) (h3 : r ≠ main_v7)
    (h4 : r ∉ hostW2) (h5 : r ≠ main_v11) : W6 m c (Proc.devRef .tc r) = m ((c : Thread nD τ).loc r) :=
  (W6_keep m c r h5).trans <| (W5_keep m c r h4).trans <| (W4_keep m c r h3).trans <| (W3_keep m c r h2).trans <|
    (W2_keep m c r h1).trans <| (W1_keep m c r h0).trans rfl

-- Every argument array holds what it was launched with.
abbrev ArgsKept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)
  ∧ μ ((c.tc : Thread nD τ).loc main_arg15) = m ((c.tc : Thread nD τ).loc main_arg15)
  ∧ μ ((c.tc : Thread nD τ).loc main_arg16) = m ((c.tc : Thread nD τ).loc main_arg16)
  ∧ μ ((c.tc : Thread nD τ).loc main_arg17) = m ((c.tc : Thread nD τ).loc main_arg17)
  ∧ μ ((c.tc : Thread nD τ).loc main_arg18) = m ((c.tc : Thread nD τ).loc main_arg18)

-- The run ends with the third region's output at the last boundary's contents and every argument as launched.
theorem run_result (ρ : Dev nD → PrngReg) : θ_run defs (onTc (τ := τ) (main (F := F))) ⟨m, fun _ => 0, ρ⟩ (fun r => ∀ c : Dev nD,
      r.2.mem ((c.tc : Thread nD τ).loc main_v11) = W6 m c (Proc.devRef .tc main_v11) ∧ ArgsKept m r.2.mem c) :=
  (θ_run defs _ _).mono (fun r h c => by
    refine ⟨h c _ (mem_uc main_v11 (by decide)), ?_, ?_, ?_, ?_, ?_, ?_, ?_, ?_, ?_, ?_, ?_, ?_, ?_, ?_, ?_, ?_, ?_, ?_, ?_⟩ <;>
      exact (h c _ (mem_uc _ (by decide))).trans
        (W6_kept m c _ (by decide) (by decide) (by decide) (by decide) (by decide) (by decide)))
    (run_all m ρ)

theorem frame_all (ρ : Dev nD → PrngReg) : θ_run defs (onTc (τ := τ) (main (F := F))) ⟨m, fun _ => 0, ρ⟩
    (fun r => ∀ c : Dev nD, ArgsKept m r.2.mem c) :=
  (θ_run defs _ _).mono (fun _ h c => (h c).2) (run_result m ρ)

end Cert.KernelIdeal.Layers

end
-- ==== Proof.FrameIdeal.L0Pieces.lean ====
import proofs.«128668_j3307124817925_1_alg».proof.Proof.FrameIdeal.L0Frame
import Idealize.ShloMosaic.Lib.Pipeline.Value
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic Idealize.SL.Sem

variable {F : FTy → Type} [FloatOps F]

theorem hz0 : (![0, 0] : Fin 2 → Nat) = fun _ => 0 := funext fun a => by fin_cases a <;> rfl

section
variable (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole)

-- At the first block the accumulator ends at the tile product added to zero;
theorem sout0_A_eq (hc0 : cond0_0 i) (hc1 : ¬cond0_1 i)
    (x0 x1 x2 x3 : Vec F S512x512 .f32) (x4 x5 x6 : Vec F S1x512 .f32) :
    sout0_A c i arg3 harg3 arg4 harg4 arg5 harg5 arg6 harg6 arg7 harg7 arg8 harg8 arg9 harg9 arg10 harg10 arg11 harg11 hc0 hc1 x0 x1 x2 x3 x4 x5 x6 = k0_pay2 x0 x2 x1 x3 (k0_pay1 (F := F)) := by
  unfold sout0_A
  rw [View.read_writes_eq_canon _ _ _ (scover0_A c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S512x512) hz0, View.readCov_unit_zero (S := S512x512) _ hz0]
  simp only [View.readAt_eq_ld, harg3.read_unread, harg4.read_unread, harg5.read_unread, harg6.read_unread,
    View.ld_unit_zero (S := S512x512) hz0]

-- at every later block, at the product added to what it held.
theorem sout0_B_eq (hc0 : ¬cond0_0 i) (hc1 : ¬cond0_1 i)
    (x0 x1 x2 x3 : Vec F S512x512 .f32) (x4 x5 x6 : Vec F S1x512 .f32) (xs : Vec F S512x512 .f32) :
    sout0_B c i arg3 harg3 arg4 harg4 arg5 harg5 arg6 harg6 arg7 harg7 arg8 harg8 arg9 harg9 arg10 harg10 arg11 harg11 hc0 hc1 x0 x1 x2 x3 x4 x5 x6 xs = k0_pay2 x0 x2 x1 x3 xs := by
  unfold sout0_B
  rw [View.read_writes_eq_canon _ _ _ (scover0_B c i arg3 harg3 arg4 harg4 arg5 harg5 arg6 harg6 arg7 harg7 arg8 harg8 arg9 harg9 arg10 harg10 arg11 harg11 hc0 hc1 x0 x1 x2 x3 x4 x5 x6 xs)]
  unfold kernelRun0_B
  dsimp only
  sl_unfold_words
  rw [View.canon_unit_zero hz0]
  simp only [View.readAt_eq_ld, harg3.read_unread, harg4.read_unread, harg5.read_unread, harg6.read_unread,
    harg11.read_unread, View.ld_unit_zero (S := S512x512) hz0]

theorem sout0_C_eq (hc0 : ¬cond0_0 i) (hc1 : cond0_1 i)
    (x0 x1 x2 x3 : Vec F S512x512 .f32) (x4 x5 x6 : Vec F S1x512 .f32) (xs : Vec F S512x512 .f32) :
    sout0_C c i arg3 harg3 arg4 harg4 arg5 harg5 arg6 harg6 arg7 harg7 arg8 harg8 arg9 harg9 arg10 harg10 arg11 harg11 hc0 hc1 x0 x1 x2 x3 x4 x5 x6 xs = k0_pay2 x0 x2 x1 x3 xs := by
  unfold sout0_C
  rw [View.read_writes_eq_canon _ _ _ (scover0_C c i arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero hz0]
  simp only [View.readAt_eq_ld, harg3.read_unread, harg4.read_unread, harg5.read_unread, harg6.read_unread,
    harg11.read_unread, View.ld_unit_zero (S := S512x512) hz0]

-- The stored tile is the accumulator plus the bias row, rectified.
theorem out0_C_7_eq (hc0 : ¬cond0_0 i) (hc1 : cond0_1 i)
    (x0 x1 x2 x3 : Vec F S512x512 .f32) (x4 x5 x6 : Vec F S1x512 .f32) (xs : Vec F S512x512 .f32) :
    out0_C_7 c i arg3 harg3 arg4 harg4 arg5 harg5 arg6 harg6 arg7 harg7 arg8 harg8 arg9 harg9 arg10 harg10 arg11 harg11 hc0 hc1 x0 x1 x2 x3 x4 x5 x6 xs = k0_pay3 x5 x4 x6 (k0_pay2 x0 x2 x1 x3 xs) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs)]
  unfold kernelRun0_C
  dsimp only
  sl_unfold_words
  rw [View.canon_unit_zero hz0]
  simp only [View.readAt_eq_ld, harg3.read_unread, harg4.read_unread, harg5.read_unread, harg6.read_unread,
    harg7.read_unread, harg8.read_unread, harg9.read_unread, harg11.read_unread,
    View.readCov_unit_zero (S := S512x512) _ hz0, View.ld_unit_zero (S := S512x512) hz0, View.ld_unit_zero (S := S1x512) hz0]

end

end Cert.KernelIdeal.Layers

end
-- ==== Proof.FrameIdeal.L0Blocks.lean ====
import proofs.«128668_j3307124817925_1_alg».proof.Proof.FrameIdeal.L0Setup
import Idealize.ShloMosaic.Lib.ValueIdx

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx

variable {F : FTy → Type} [FloatOps F]

section
variable (V : (c : Dev nD) → (b : Ref sig .tc) → Buf (Elt F) ((c : Thread nD τ).loc b))

abbrev xblk0 (c : Dev nD) (t : Fin cfg0.N) : Vec F S512x512 .f32 := iblk0 V c 0 t

abbrev xarr0 (c : Dev nD) : Vec F S8192x1024 .f32 := V c main_arg0

abbrev mWblk0 (c : Dev nD) (t : Fin cfg0.N) : Vec F S512x512 .f32 := iblk0 V c 1 t
abbrev sWblk0 (c : Dev nD) (t : Fin cfg0.N) : Vec F S512x512 .f32 := iblk0 V c 2 t
abbrev zWblk0 (c : Dev nD) (t : Fin cfg0.N) : Vec F S512x512 .f32 := iblk0 V c 3 t
abbrev mWarr0 (c : Dev nD) : Vec F S4096x1024 .f32 := V c main_arg1
abbrev sWarr0 (c : Dev nD) : Vec F S4096x1024 .f32 := V c main_arg2
abbrev zWarr0 (c : Dev nD) : Vec F S4096x1024 .f32 := V c main_arg3

abbrev mbblk0 (c : Dev nD) (t : Fin cfg0.N) : Vec F S1x512 .f32 := iblk0 V c 4 t
abbrev sbblk0 (c : Dev nD) (t : Fin cfg0.N) : Vec F S1x512 .f32 := iblk0 V c 5 t
abbrev zbblk0 (c : Dev nD) (t : Fin cfg0.N) : Vec F S1x512 .f32 := iblk0 V c 6 t
abbrev mbarr0 (c : Dev nD) : Vec F S1x4096 .f32 := V c main_v0
abbrev sbarr0 (c : Dev nD) : Vec F S1x4096 .f32 := V c main_v1
abbrev zbarr0 (c : Dev nD) : Vec F S1x4096 .f32 := V c main_v2

-- Each window's block index is arithmetic in the point's number.
theorem idx_facts0 : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = t.val / 2 % 8 ∧ win0_2.index t (1 : Fin 2) = t.val % 2
    ∧ win0_3.index t (0 : Fin 2) = t.val / 2 % 8 ∧ win0_3.index t (1 : Fin 2) = t.val % 2
    ∧ win0_4.index t (0 : Fin 2) = 0 ∧ win0_4.index t (1 : Fin 2) = t.val / 2 % 8
    ∧ win0_5.index t (0 : Fin 2) = 0 ∧ win0_5.index t (1 : Fin 2) = t.val / 2 % 8
    ∧ win0_6.index t (0 : Fin 2) = 0 ∧ win0_6.index t (1 : Fin 2) = t.val / 2 % 8
    ∧ win0_7.index t (0 : Fin 2) = t.val / 16 ∧ win0_7.index t (1 : Fin 2) = t.val / 2 % 8 :=
  (by decide +kernel : ∀ t : Fin grid0.N, _)

-- Entry (a, b) of a block is entry (512 * row block + a, 512 * column block + b) of its array.
theorem xblk0_apply (c : Dev nD) (t : Fin cfg0.N) (a b : Fin 512) (p : Fin 8192) (q : Fin 1024)
    (hp : p.val = t.val / 16 * 512 + a.val) (hq : q.val = t.val % 2 * 512 + b.val) :
    xblk0 V c t (ix2 a b) = xarr0 V c (ix2 p q) := by
  obtain ⟨e0, e1, -⟩ := idx_facts0 t
  show xarr0 V c (((cfg0.win 0).blk t).view.emb (ix2 a b)) = xarr0 V c (ix2 p q)
  refine congrArg (xarr0 V c) (funext fun ax => Fin.ext ?_)
  match ax with
  | ⟨0, _⟩ => show win0_0.index t (0 : Fin 2) * 512 + 1 * a.val = p.val; omega
  | ⟨1, _⟩ => show win0_0.index t (1 : Fin 2) * 512 + 1 * b.val = q.val; omega

theorem mWblk0_apply (c : Dev nD) (t : Fin cfg0.N) (a b : Fin 512) (p : Fin 4096) (q : Fin 1024)
    (hp : p.val = t.val / 2 % 8 * 512 + a.val) (hq : q.val = t.val % 2 * 512 + b.val) :
    mWblk0 V c t (ix2 a b) = mWarr0 V c (ix2 p q) := by
  obtain ⟨-, -, e10, e11, e20, e21, e30, e31, -⟩ := idx_facts0 t
  show mWarr0 V c (((cfg0.win 1).blk t).view.emb (ix2 a b)) = mWarr0 V c (ix2 p q)
  refine congrArg (mWarr0 V c) (funext fun ax => Fin.ext ?_)
  match ax with
  | ⟨0, _⟩ => show win0_1.index t (0 : Fin 2) * 512 + 1 * a.val = p.val; omega
  | ⟨1, _⟩ => show win0_1.index t (1 : Fin 2) * 512 + 1 * b.val = q.val; omega

theorem sWblk0_apply (c : Dev nD) (t : Fin cfg0.N) (a b : Fin 512) (p : Fin 4096) (q : Fin 1024)
    (hp : p.val = t.val / 2 % 8 * 512 + a.val) (hq : q.val = t.val % 2 * 512 + b.val) :
    sWblk0 V c t (ix2 a b) = sWarr0 V c (ix2 p q) := by
  obtain ⟨-, -, e10, e11, e20, e21, e30, e31, -⟩ := idx_facts0 t
  show sWarr0 V c (((cfg0.win 2).blk t).view.emb (ix2 a b)) = sWarr0 V c (ix2 p q)
  refine congrArg (sWarr0 V c) (funext fun ax => Fin.ext ?_)
  match ax with
  | ⟨0, _⟩ => show win0_2.index t (0 : Fin 2) * 512 + 1 * a.val = p.val; omega
  | ⟨1, _⟩ => show win0_2.index t (1 : Fin 2) * 512 + 1 * b.val = q.val; omega

theorem zWblk0_apply (c : Dev nD) (t : Fin cfg0.N) (a b : Fin 512) (p : Fin 4096) (q : Fin 1024)
    (hp : p.val = t.val / 2 % 8 * 512 + a.val) (hq : q.val = t.val % 2 * 512 + b.val) :
    zWblk0 V c t (ix2 a b) = zWarr0 V c (ix2 p q) := by
  obtain ⟨-, -, e10, e11, e20, e21, e30, e31, -⟩ := idx_facts0 t
  show zWarr0 V c (((cfg0.win 3).blk t).view.emb (ix2 a b)) = zWarr0 V c (ix2 p q)
  refine congrArg (zWarr0 V c) (funext fun ax => Fin.ext ?_)
  match ax with
  | ⟨0, _⟩ => show win0_3.index t (0 : Fin 2) * 512 + 1 * a.val = p.val; omega
  | ⟨1, _⟩ => show win0_3.index t (1 : Fin 2) * 512 + 1 * b.val = q.val; omega

theorem mbblk0_apply (c : Dev nD) (t : Fin cfg0.N) (r r' : Fin 1) (b : Fin 512) (q : Fin 4096)
    (hq : q.val = t.val / 2 % 8 * 512 + b.val) :
    mbblk0 V c t (ix2 r b) = mbarr0 V c (ix2 r' q) := by
  obtain ⟨-, -, -, -, -, -, -, -, e40, e41, e50, e51, e60, e61, -⟩ := idx_facts0 t
  have hr : r.val < 1 := r.isLt
  have hr' : r'.val < 1 := r'.isLt
  show mbarr0 V c (((cfg0.win 4).blk t).view.emb (ix2 r b)) = mbarr0 V c (ix2 r' q)
  refine congrArg (mbarr0 V c) (funext fun ax => Fin.ext ?_)
  match ax with
  | ⟨0, _⟩ => show win0_4.index t (0 : Fin 2) * 1 + 1 * r.val = r'.val; omega
  | ⟨1, _⟩ => show win0_4.index t (1 : Fin 2) * 512 + 1 * b.val = q.val; omega

theorem sbblk0_apply (c : Dev nD) (t : Fin cfg0.N) (r r' : Fin 1) (b : Fin 512) (q : Fin 4096)
    (hq : q.val = t.val / 2 % 8 * 512 + b.val) :
    sbblk0 V c t (ix2 r b) = sbarr0 V c (ix2 r' q) := by
  obtain ⟨-, -, -, -, -, -, -, -, e40, e41, e50, e51, e60, e61, -⟩ := idx_facts0 t
  have hr : r.val < 1 := r.isLt
  have hr' : r'.val < 1 := r'.isLt
  show sbarr0 V c (((cfg0.win 5).blk t).view.emb (ix2 r b)) = sbarr0 V c (ix2 r' q)
  refine congrArg (sbarr0 V c) (funext fun ax => Fin.ext ?_)
  match ax with
  | ⟨0, _⟩ => show win0_5.index t (0 : Fin 2) * 1 + 1 * r.val = r'.val; omega
  | ⟨1, _⟩ => show win0_5.index t (1 : Fin 2) * 512 + 1 * b.val = q.val; omega

theorem zbblk0_apply (c : Dev nD) (t : Fin cfg0.N) (r r' : Fin 1) (b : Fin 512) (q : Fin 4096)
    (hq : q.val = t.val / 2 % 8 * 512 + b.val) :
    zbblk0 V c t (ix2 r b) = zbarr0 V c (ix2 r' q) := by
  obtain ⟨-, -, -, -, -, -, -, -, e40, e41, e50, e51, e60, e61, -⟩ := idx_facts0 t
  have hr : r.val < 1 := r.isLt
  have hr' : r'.val < 1 := r'.isLt
  show zbarr0 V c (((cfg0.win 6).blk t).view.emb (ix2 r b)) = zbarr0 V c (ix2 r' q)
  refine congrArg (zbarr0 V c) (funext fun ax => Fin.ext ?_)
  match ax with
  | ⟨0, _⟩ => show win0_6.index t (0 : Fin 2) * 1 + 1 * r.val = r'.val; omega
  | ⟨1, _⟩ => show win0_6.index t (1 : Fin 2) * 512 + 1 * b.val = q.val; omega

theorem oblk0_read_apply (G : Vec F S8192x4096 .f32) (t : Fin cfg0.N) (a b : Fin 512) (p : Fin 8192) (q : Fin 4096)
    (hp : p.val = t.val / 16 * 512 + a.val) (hq : q.val = t.val / 2 % 8 * 512 + b.val) :
    (((cfg0.win 7).blk t).view.read (Elt F) G : Vec F S512x512 .f32) (ix2 a b) = G (ix2 p q) := by
  obtain ⟨-, -, -, -, -, -, -, -, -, -, -, -, -, -, e70, e71⟩ := idx_facts0 t
  show G (((cfg0.win 7).blk t).view.emb (ix2 a b)) = G (ix2 p q)
  refine congrArg G (funext fun ax => Fin.ext ?_)
  match ax with
  | ⟨0, _⟩ => show win0_7.index t (0 : Fin 2) * 512 + 1 * a.val = p.val; omega
  | ⟨1, _⟩ => show win0_7.index t (1 : Fin 2) * 512 + 1 * b.val = q.val; omega

end

end Cert.KernelIdeal.Layers

end
-- ==== Proof.Spec.lean ====
import Idealize.ShloMosaic.PureOps.Ideal

noncomputable section

namespace Cert.BayesMlp

open Idealize.ShloMosaic

def softplus (x : EReal) : EReal := max x 0 + Ideal.log1p (Ideal.exp (-(max x (-x))))

def relu (x : EReal) : EReal := max x 0

def weight {N K : Nat} (mW sW zW : Fin N → Fin K → EReal) : Fin N → Fin K → EReal :=
  fun q k => mW q k + softplus (sW q k) * zW q k

def bias {N : Nat} (mb sb zb : Fin N → EReal) : Fin N → EReal :=
  fun q => mb q + softplus (sb q) * zb q

-- One layer: act (X · Aᵀ + b) with the sampled weight A and bias b.
def dense {M K N : Nat} (act : EReal → EReal) (X : Fin M → Fin K → EReal) (A : Fin N → Fin K → EReal)
    (b : Fin N → EReal) : Fin M → Fin N → EReal :=
  fun p q => act ((∑ k : Fin K, X p k * A q k) + b q)

-- The network: three dense layers, rectified after the first two.
def mlp (x : Fin 8192 → Fin 1024 → EReal)
    (mW0 sW0 zW0 : Fin 4096 → Fin 1024 → EReal) (mb0 sb0 zb0 : Fin 4096 → EReal)
    (mW1 sW1 zW1 : Fin 4096 → Fin 4096 → EReal) (mb1 sb1 zb1 : Fin 4096 → EReal)
    (mW2 sW2 zW2 : Fin 1024 → Fin 4096 → EReal) (mb2 sb2 zb2 : Fin 1024 → EReal) :
    Fin 8192 → Fin 1024 → EReal :=
  dense id
    (dense relu (dense relu x (weight mW0 sW0 zW0) (bias mb0 sb0 zb0)) (weight mW1 sW1 zW1) (bias mb1 sb1 zb1))
    (weight mW2 sW2 zW2) (bias mb2 sb2 zb2)

end Cert.BayesMlp

end
-- ==== Proof.Payload.lean ====
import proofs.«128668_j3307124817925_1_alg».proof.Proof.Gen.KernelIdeal.Skeleton
import proofs.«128668_j3307124817925_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic ValueIdx Cert.BayesMlp

-- The printed softplus, entry by entry: the NaN branch never fires over the extended reals.
theorem softplus_entry (s : EReal) :
    Scalar.select (Ideal.cmp .one (s - 0) (s - 0)) (s + 0)
      (max s 0 + Ideal.log1p (Ideal.exp (0 - max (s - 0) (-(s - 0))))) = softplus s := by
  have hc : Ideal.cmp .one (s - 0) (s - 0) = 0#1 := by
    unfold Ideal.cmp
    simp
  rw [hc, select_zero, sub_zero, sub_eq_add_neg, zero_add]
  rfl

theorem zero_word : (Scalar.ofBits .f32 0x00000000#32 : Ideal .f32) = 0 := Ideal.ofBits_zero_f32

theorem softplus_tile_apply {s : Shape} (v : FVec Ideal s .f32) (j : s.Idx) :
    select (cmpf .one (subf v (broadcast s (Scalar.ofBits .f32 0x00000000#32)))
        (subf v (broadcast s (Scalar.ofBits .f32 0x00000000#32))))
      (addf v (broadcast s (Scalar.ofBits .f32 0x00000000#32)))
      (addf (maximumf v (broadcast s (Scalar.ofBits .f32 0x00000000#32)))
        (log1p (exp (subf (broadcast s (Scalar.ofBits .f32 0x00000000#32))
          (absf (subf v (broadcast s (Scalar.ofBits .f32 0x00000000#32)))))))) j = softplus (v j) := by
  show Scalar.select
      (Ideal.cmp .one (v j - (Scalar.ofBits .f32 0x00000000#32 : Ideal .f32)) (v j - (Scalar.ofBits .f32 0x00000000#32 : Ideal .f32)))
      (v j + (Scalar.ofBits .f32 0x00000000#32 : Ideal .f32))
      (max (v j) (Scalar.ofBits .f32 0x00000000#32 : Ideal .f32) + Ideal.log1p (Ideal.exp
        ((Scalar.ofBits .f32 0x00000000#32 : Ideal .f32)
          - max (v j - (Scalar.ofBits .f32 0x00000000#32 : Ideal .f32)) (-(v j - (Scalar.ofBits .f32 0x00000000#32 : Ideal .f32)))))) = _
  rw [zero_word]
  exact softplus_entry (v j)

theorem lhs_axis0 (i : S512x512.Idx) (c : dot_S512x512_S512x512_S512x512_1_1_0_0_n_n.contr.Idx) :
    (dot_S512x512_S512x512_S512x512_1_1_0_0_n_n.lhsIdx i c 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl

theorem lhs_axis1 (i : S512x512.Idx) (c : dot_S512x512_S512x512_S512x512_1_1_0_0_n_n.contr.Idx) :
    (dot_S512x512_S512x512_S512x512_1_1_0_0_n_n.lhsIdx i c 1).val = (c ⟨0, by decide⟩).val :=
  dot_S512x512_S512x512_S512x512_1_1_0_0_n_n.lhsIdx_val_of_single rfl i c

theorem rhs_axis0 (i : S512x512.Idx) (c : dot_S512x512_S512x512_S512x512_1_1_0_0_n_n.contr.Idx) :
    (dot_S512x512_S512x512_S512x512_1_1_0_0_n_n.rhsIdx i c 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

theorem rhs_axis1 (i : S512x512.Idx) (c : dot_S512x512_S512x512_S512x512_1_1_0_0_n_n.contr.Idx) :
    (dot_S512x512_S512x512_S512x512_1_1_0_0_n_n.rhsIdx i c 1).val = (c ⟨0, by decide⟩).val :=
  dot_S512x512_S512x512_S512x512_1_1_0_0_n_n.rhsIdx_val_of_single rfl i c

-- An entry of a tile product is the sum of the 512 products along the contracted axis.
theorem matmul_entry {φ₁ φ₂ : FTy} (a : FVec Ideal S512x512 φ₁) (b : FVec Ideal S512x512 φ₂) (p q : Fin 512) :
    matmul dot_S512x512_S512x512_S512x512_1_1_0_0_n_n none a b (constant (F := Ideal) S512x512 .f32 0x00000000#32) (ix2 p q)
      = ∑ k : Fin 512, a (ix2 p k) * b (ix2 q k) := by
  simp only [matmul]
  rw [Ideal.matmul_constant_zero_apply,
    ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q)
      ((contrEquiv1 dot_S512x512_S512x512_S512x512_1_1_0_0_n_n 512 rfl rfl).symm k) = ix2 p k :=
    funext fun ax => Fin.ext (by
      match ax with
      | ⟨0, _⟩ => exact lhs_axis0 _ _
      | ⟨1, _⟩ => exact (lhs_axis1 _ _).trans hk)
  have er : dot_S512x512_S512x512_S512x512_1_1_0_0_n_n.rhsIdx (ix2 p q)
      ((contrEquiv1 dot_S512x512_S512x512_S512x512_1_1_0_0_n_n 512 rfl rfl).symm k) = ix2 q k :=
    funext fun ax => Fin.ext (by
      match ax with
      | ⟨0, _⟩ => exact rhs_axis0 _ _
      | ⟨1, _⟩ => exact (rhs_axis1 _ _).trans hk)
  rw [el, er]

theorem relu_tile_apply {s : Shape} (v : FVec Ideal s .f32) (j : s.Idx) :
    maximumf v (broadcast s (Scalar.ofBits .f32 0x00000000#32)) j = relu (v j) := by
  show max (v j) (Scalar.ofBits .f32 0x00000000#32 : Ideal .f32) = max (v j) 0
  rw [zero_word]

theorem k0_pay1_apply (y : S512x512.Idx) : k0_pay1 (F := Ideal) y = 0 := by
  unfold k0_pay1
  rw [shapeCast_self]
  exact zero_word

theorem k0_pay2_apply (x sW mW zW acc : Vec Ideal S512x512 .f32) (p q : Fin 512) :
    k0_pay2 x sW mW zW acc (ix2 p q)
      = acc (ix2 p q) + ∑ k : Fin 512, x (ix2 p k) * (mW (ix2 q k) + softplus (sW (ix2 q k)) * zW (ix2 q k)) := by
  unfold k0_pay2
  rw [shapeCast_self]
  refine (addf_apply _ _ _).trans (congrArg (acc (ix2 p q) + ·) ?_)
  refine (matmul_entry _ _ p q).trans (Finset.sum_congr rfl fun k _ => ?_)
  exact congrArg (fun t => x (ix2 p k) * (mW (ix2 q k) + t * zW (ix2 q k))) (softplus_tile_apply sW (ix2 q k))

theorem k0_pay3_apply (sb mb zb : Vec Ideal S1x512 .f32) (acc : Vec Ideal S512x512 .f32) (p q : Fin 512) :
    k0_pay3 sb mb zb acc (ix2 p q)
      = relu (acc (ix2 p q) + (mb (ix2 0 q) + softplus (sb (ix2 0 q)) * zb (ix2 0 q))) := by
  unfold k0_pay3
  simp only [shapeCast_self]
  refine (relu_tile_apply _ _).trans (congrArg relu ?_)
  refine (addf_apply _ _ _).trans (congrArg (acc (ix2 p q) + ·) ?_)
  refine (broadcastTo_1b_ab_apply _ _ p q).trans ?_
  exact congrArg (fun t => mb (ix2 0 q) + t * zb (ix2 0 q)) (softplus_tile_apply sb (ix2 0 q))

theorem k1_pay1_apply (y : S512x512.Idx) : k1_pay1 (F := Ideal) y = 0 := by
  unfold k1_pay1
  rw [shapeCast_self]
  exact zero_word

theorem k1_pay2_apply (x sW mW zW acc : Vec Ideal S512x512 .f32) (p q : Fin 512) :
    k1_pay2 x sW mW zW acc (ix2 p q)
      = acc (ix2 p q) + ∑ k : Fin 512, x (ix2 p k) * (mW (ix2 q k) + softplus (sW (ix2 q k)) * zW (ix2 q k)) := by
  unfold k1_pay2
  simp only [shapeCast_self]
  refine (addf_apply _ _ _).trans (congrArg (acc (ix2 p q) + ·) ?_)
  refine (matmul_entry _ _ p q).trans (Finset.sum_congr rfl fun k _ => ?_)
  exact congrArg (fun t => x (ix2 p k) * (mW (ix2 q k) + t * zW (ix2 q k))) (softplus_tile_apply sW (ix2 q k))

theorem k1_pay3_apply (sb mb zb : Vec Ideal S1x512 .f32) (acc : Vec Ideal S512x512 .f32) (p q : Fin 512) :
    k1_pay3 sb mb zb acc (ix2 p q)
      = relu (acc (ix2 p q) + (mb (ix2 0 q) + softplus (sb (ix2 0 q)) * zb (ix2 0 q))) := by
  unfold k1_pay3
  simp only [shapeCast_self]
  refine (relu_tile_apply _ _).trans (congrArg relu ?_)
  refine (addf_apply _ _ _).trans (congrArg (acc (ix2 p q) + ·) ?_)
  refine (broadcastTo_1b_ab_apply _ _ p q).trans ?_
  exact congrArg (fun t => mb (ix2 0 q) + t * zb (ix2 0 q)) (softplus_tile_apply sb (ix2 0 q))

theorem k2_pay1_apply (y : S512x512.Idx) : k2_pay1 (F := Ideal) y = 0 := by
  unfold k2_pay1
  rw [shapeCast_self]
  exact zero_word

theorem k2_pay2_apply (x sW mW zW acc : Vec Ideal S512x512 .f32) (p q : Fin 512) :
    k2_pay2 x sW mW zW acc (ix2 p q)
      = acc (ix2 p q) + ∑ k : Fin 512, x (ix2 p k) * (mW (ix2 q k) + softplus (sW (ix2 q k)) * zW (ix2 q k)) := by
  unfold k2_pay2
  simp only [shapeCast_self]
  refine (addf_apply _ _ _).trans (congrArg (acc (ix2 p q) + ·) ?_)
  refine (matmul_entry _ _ p q).trans (Finset.sum_congr rfl fun k _ => ?_)
  exact congrArg (fun t => x (ix2 p k) * (mW (ix2 q k) + t * zW (ix2 q k))) (softplus_tile_apply sW (ix2 q k))

theorem k2_pay3_apply (sb mb zb : Vec Ideal S1x512 .f32) (acc : Vec Ideal S512x512 .f32) (p q : Fin 512) :
    k2_pay3 sb mb zb acc (ix2 p q)
      = acc (ix2 p q) + (mb (ix2 0 q) + softplus (sb (ix2 0 q)) * zb (ix2 0 q)) := by
  unfold k2_pay3
  simp only [shapeCast_self]
  refine (addf_apply _ _ _).trans (congrArg (acc (ix2 p q) + ·) ?_)
  refine (broadcastTo_1b_ab_apply _ _ p q).trans ?_
  exact congrArg (fun t => mb (ix2 0 q) + t * zb (ix2 0 q)) (softplus_tile_apply sb (ix2 0 q))

end Cert.KernelIdeal.Payload

end
-- ==== Proof.Algebra.lean ====
import proofs.«128668_j3307124817925_1_alg».proof.Proof.Spec
import Mathlib.Algebra.BigOperators.Group.Finset.Basic
import Mathlib.Data.Fintype.BigOperators

noncomputable section

namespace Cert.BayesMlp

-- The sum of the first n blocks of 512 terms,
def blockSum (f : Nat → EReal) : Nat → EReal
  | 0 => 0
  | n + 1 => blockSum f n + ∑ j : Fin 512, f (n * 512 + j.val)

theorem blockSum_eq_range (f : Nat → EReal) (n : Nat) : blockSum f n = ∑ k ∈ Finset.range (n * 512), f k := by
  induction n with
  | zero => simp [blockSum]
  | succ n ih =>
    rw [blockSum, ih, Nat.succ_mul, Finset.sum_range_add,
      Fin.sum_univ_eq_sum_range (fun j => f (n * 512 + j)) 512]

-- which is the plain sum of the first 512 n terms: sums of extended reals regroup freely.
theorem blockSum_eq (f : Nat → EReal) (n : Nat) : blockSum f n = ∑ k : Fin (n * 512), f k.val := by
  rw [blockSum_eq_range, Fin.sum_univ_eq_sum_range f (n * 512)]

end Cert.BayesMlp

end
-- ==== Proof.FrameIdeal.L0Acc.lean ====
import proofs.«128668_j3307124817925_1_alg».proof.Proof.FrameIdeal.L0Pieces
import proofs.«128668_j3307124817925_1_alg».proof.Proof.FrameIdeal.L0Blocks
import proofs.«128668_j3307124817925_1_alg».proof.Proof.Payload
import proofs.«128668_j3307124817925_1_alg».proof.Proof.Algebra

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx Cert.BayesMlp

section
variable (V : (c : Dev nD) → (b : Ref sig .tc) → Buf (Elt Ideal) ((c : Thread nD τ).loc b))

def X0 (c : Dev nD) : Fin 8192 → Fin 1024 → EReal := fun p k => xarr0 V c (ix2 p k)

def A0 (c : Dev nD) : Fin 4096 → Fin 1024 → EReal :=
  weight (fun q k => mWarr0 V c (ix2 q k)) (fun q k => sWarr0 V c (ix2 q k)) (fun q k => zWarr0 V c (ix2 q k))

def B0 (c : Dev nD) : Fin 4096 → EReal :=
  bias (fun q => mbarr0 V c (ix2 0 q)) (fun q => sbarr0 V c (ix2 0 q)) (fun q => zbarr0 V c (ix2 0 q))

def term0 (c : Dev nD) (p : Fin 8192) (q : Fin 4096) (n : Nat) : EReal :=
  if h : n < 1024 then X0 V c p ⟨n, h⟩ * A0 V c q ⟨n, h⟩ else 0

-- The tile product at a point is one block of 512 of the contraction's terms.
theorem step0 (c : Dev nD) (t : Fin cfg0.N) (a b : Fin 512) (p : Fin 8192) (q : Fin 4096)
    (hp : p.val = t.val / 16 * 512 + a.val) (hq : q.val = t.val / 2 % 8 * 512 + b.val) :
    ∑ k : Fin 512, xblk0 V c t (ix2 a k) * (mWblk0 V c t (ix2 b k) + softplus (sWblk0 V c t (ix2 b k)) * zWblk0 V c t (ix2 b k))
      = ∑ k : Fin 512, term0 V c p q (t.val % 2 * 512 + k.val) := by
  refine Finset.sum_congr rfl fun k _ => ?_
  have hk : t.val % 2 * 512 + k.val < 1024 := by have := k.isLt; omega
  rw [term0, dif_pos hk,
    xblk0_apply V c t a k p ⟨t.val % 2 * 512 + k.val, hk⟩ hp rfl,
    mWblk0_apply V c t b k q ⟨t.val % 2 * 512 + k.val, hk⟩ hq rfl,
    sWblk0_apply V c t b k q ⟨t.val % 2 * 512 + k.val, hk⟩ hq rfl,
    zWblk0_apply V c t b k q ⟨t.val % 2 * 512 + k.val, hk⟩ hq rfl]
  rfl

theorem pay2_step0 (c : Dev nD) (t : Fin cfg0.N) (a b : Fin 512) (p : Fin 8192) (q : Fin 4096)
    (hp : p.val = t.val / 16 * 512 + a.val) (hq : q.val = t.val / 2 % 8 * 512 + b.val)
    (xs : Vec Ideal S512x512 .f32) (hxs : xs (ix2 a b) = blockSum (term0 V c p q) (t.val % 2)) :
    k0_pay2 (xblk0 V c t) (sWblk0 V c t) (mWblk0 V c t) (zWblk0 V c t) xs (ix2 a b)
      = blockSum (term0 V c p q) (t.val % 2 + 1) :=
  (Payload.k0_pay2_apply (xblk0 V c t) (sWblk0 V c t) (mWblk0 V c t) (zWblk0 V c t) xs a b).trans
    (congrArg₂ (· + ·) hxs (step0 V c t a b p q hp hq))

theorem acc0_A (c : Dev nD) (t : Fin cfg0.N) (h0 : t.val % 2 = 0) (h1 : ¬t.val % 2 = 1) (a b : Fin 512) (p : Fin 8192) (q : Fin 4096)
    (hp : p.val = t.val / 16 * 512 + a.val) (hq : q.val = t.val / 2 % 8 * 512 + b.val) :
    (outsAt0 V c t.val t.isLt).2 (ix2 a b) = blockSum (term0 V c p q) (t.val % 2 + 1) := by
  rw [outsAt0_A V c t h0 h1]
  dsimp only
  refine (congrFun (sout0_A_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) (ix2 a b)).trans ?_
  refine pay2_step0 V c t a b p q hp hq (k0_pay1 (F := Ideal)) ?_
  rw [h0]
  exact Payload.k0_pay1_apply _

theorem acc0_B (c : Dev nD) (t : Fin cfg0.N) (h0 : ¬t.val % 2 = 0) (h1 : ¬t.val % 2 = 1) (a b : Fin 512) (p : Fin 8192) (q : Fin 4096)
    (hp : p.val = t.val / 16 * 512 + a.val) (hq : q.val = t.val / 2 % 8 * 512 + b.val)
    (ih : (outsAt0 V c (t.val - 1) (Nat.lt_of_le_of_lt (Nat.sub_le _ _) t.isLt)).2 (ix2 a b) = blockSum (term0 V c p q) (t.val % 2)) :
    (outsAt0 V c t.val t.isLt).2 (ix2 a b) = blockSum (term0 V c p q) (t.val % 2 + 1) := by
  rw [outsAt0_B V c t h0 h1]
  dsimp only
  refine (congrFun (sout0_B_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) (ix2 a b)).trans ?_
  exact pay2_step0 V c t a b p q hp hq _ ih

theorem acc0_C (c : Dev nD) (t : Fin cfg0.N) (h0 : ¬t.val % 2 = 0) (h1 : t.val % 2 = 1) (a b : Fin 512) (p : Fin 8192) (q : Fin 4096)
    (hp : p.val = t.val / 16 * 512 + a.val) (hq : q.val = t.val / 2 % 8 * 512 + b.val)
    (ih : (outsAt0 V c (t.val - 1) (Nat.lt_of_le_of_lt (Nat.sub_le _ _) t.isLt)).2 (ix2 a b) = blockSum (term0 V c p q) (t.val % 2)) :
    (outsAt0 V c t.val t.isLt).2 (ix2 a b) = blockSum (term0 V c p q) (t.val % 2 + 1) := by
  rw [outsAt0_C V c t h0 h1]
  dsimp only
  refine (congrFun (sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) (ix2 a b)).trans ?_
  exact pay2_step0 V c t a b p q hp hq _ ih

-- By induction on the point: after block k the accumulator holds the sum of the first k + 1 blocks.
theorem acc0_eq (c : Dev nD) : ∀ (n : ℕ) (hn : n < cfg0.N) (a b : Fin 512) (p : Fin 8192) (q : Fin 4096),
    p.val = n / 16 * 512 + a.val → q.val = n / 2 % 8 * 512 + b.val →
    (outsAt0 V c n hn).2 (ix2 a b) = blockSum (term0 V c p q) (n % 2 + 1)
  | 0, hn, a, b, p, q, hp, hq => acc0_A V c ⟨0, hn⟩ rfl (by show ¬(0 % 2 = 1); decide) a b p q hp hq
  | n + 1, hn, a, b, p, q, hp, hq => by
    by_cases h0 : (n + 1) % 2 = 0
    · exact acc0_A V c ⟨n + 1, hn⟩ h0 (by show ¬((n + 1) % 2 = 1); omega) a b p q hp hq
    · have ih := acc0_eq c n (Nat.lt_of_succ_lt hn) a b p q (by omega) (by omega)
      rw [show n % 2 + 1 = (n + 1) % 2 from by omega] at ih
      by_cases h1 : (n + 1) % 2 = 1
      · exact acc0_C V c ⟨n + 1, hn⟩ h0 h1 a b p q hp hq ih
      · exact acc0_B V c ⟨n + 1, hn⟩ h0 h1 a b p q hp hq ih

-- So a stored entry is the dense layer's value there.
theorem out0_eq (c : Dev nD) (t : Fin cfg0.N) (h1 : t.val % 2 = 1) (a b : Fin 512) (p : Fin 8192) (q : Fin 4096)
    (hp : p.val = t.val / 16 * 512 + a.val) (hq : q.val = t.val / 2 % 8 * 512 + b.val) :
    (outsAt0 V c t.val t.isLt).1 (ix2 a b) = relu (blockSum (term0 V c p q) 2 + B0 V c q) := by
  have h0 : ¬t.val % 2 = 0 := by omega
  have ih : (outsAt0 V c (t.val - 1) (Nat.lt_of_le_of_lt (Nat.sub_le _ _) t.isLt)).2 (ix2 a b) = blockSum (term0 V c p q) (t.val % 2) := by
    have := acc0_eq V c (t.val - 1) (Nat.lt_of_le_of_lt (Nat.sub_le _ _) t.isLt) a b p q (by omega) (by omega)
    rw [show (t.val - 1) % 2 + 1 = t.val % 2 from by omega] at this
    exact this
  rw [outsAt0_C V c t h0 h1]
  dsimp only
  refine (congrFun (out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) (ix2 a b)).trans ?_
  refine (Payload.k0_pay3_apply (sbblk0 V c t) (mbblk0 V c t) (zbblk0 V c t)
    (k0_pay2 (xblk0 V c t) (sWblk0 V c t) (mWblk0 V c t) (zWblk0 V c t) (outsAt0 V c (t.val - 1) (Nat.lt_of_le_of_lt (Nat.sub_le _ _) t.isLt)).2) a b).trans ?_
  rw [pay2_step0 V c t a b p q hp hq _ ih, h1,
    mbblk0_apply V c t 0 0 b q hq, sbblk0_apply V c t 0 0 b q hq, zbblk0_apply V c t 0 0 b q hq]
  rfl

end

end Cert.KernelIdeal.Layers

end
-- ==== Proof.FrameIdeal.L0Value.lean ====
import proofs.«128668_j3307124817925_1_alg».proof.Proof.FrameIdeal.L0Acc
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx Cert.BayesMlp
open Idealize.ShloMosaic.Pipeline (Dat)

section
variable (V : (c : Dev nD) → (b : Ref sig .tc) → Buf (Elt Ideal) ((c : Thread nD τ).loc b))

def G0 (c : Dev nD) : Vec Ideal S8192x4096 .f32 := fun i => dense relu (X0 V c) (A0 V c) (B0 V c) (i 0) (i 1)

-- All 2 blocks together are the whole contraction.
theorem blockSum_term0 (c : Dev nD) (p : Fin 8192) (q : Fin 4096) :
    blockSum (term0 V c p q) 2 = ∑ k : Fin 1024, X0 V c p k * A0 V c q k := by
  rw [blockSum_eq]
  show ∑ k : Fin 1024, term0 V c p q k.val = _
  refine Finset.sum_congr rfl fun k _ => ?_
  rw [term0, dif_pos k.isLt]

theorem flushed0_eq (c : Dev nD) (t : Fin cfg0.N) (hf : (cfg0.win 7).flush t = true) :
    (dat0 V c).flushed 7 t = ((cfg0.win 7).blk t).view.read (Elt Ideal) (G0 V c) := by
  have h1 : t.val % 2 = 1 := (flush0_7 t).mp hf
  have hN : cfg0.N = 256 := N_0
  have ht : t.val < cfg0.N := t.isLt
  show (cfg0.win 7).cut (grid0.coords t) ((dat0 V c).after 7 t) = _
  rw [after0_7]
  funext y
  obtain ⟨a, b, rfl⟩ : ∃ (a b : Fin 512), y = ix2 a b := ⟨y 0, y 1, eq_ix2 y⟩
  have hp : t.val / 16 * 512 + a.val < 8192 := by have := a.isLt; omega
  have hq : t.val / 2 % 8 * 512 + b.val < 4096 := by have := b.isLt; omega
  refine (out0_eq V c t h1 a b ⟨t.val / 16 * 512 + a.val, hp⟩ ⟨t.val / 2 % 8 * 512 + b.val, hq⟩ rfl rfl).trans ?_
  refine Eq.trans ?_ (oblk0_read_apply (G0 V c) t a b ⟨t.val / 16 * 512 + a.val, hp⟩ ⟨t.val / 2 % 8 * 512 + b.val, hq⟩ rfl rfl).symm
  rw [blockSum_term0]
  rfl

theorem mem_oblk0 (t : Fin cfg0.N) (i : S8192x4096.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v3).slice (win0_7.rect t)).set ↔ _
  rw [View.set_slice_whole, Rect.mem_set_unit]
  exact Iff.rfl

-- The stored tiles cover the output array.
theorem cover0 (i : S8192x4096.Idx) :
    ∃ t : Fin cfg0.N, (cfg0.win 7).flush t = true ∧ i ∈ ((cfg0.win 7).blk t).view.set := by
  have hN : cfg0.N = 256 := N_0
  have hi0 : (i 0).val < 8192 := (i 0).isLt
  have hi1 : (i 1).val < 4096 := (i 1).isLt
  have htN : ((i 0).val / 512 * 8 + (i 1).val / 512) * 2 + 1 < cfg0.N := by omega
  refine ⟨⟨((i 0).val / 512 * 8 + (i 1).val / 512) * 2 + 1, htN⟩, (flush0_7 _).mpr (by show (((i 0).val / 512 * 8 + (i 1).val / 512) * 2 + 1) % 2 = 1; omega), ?_⟩
  rw [mem_oblk0]
  obtain ⟨-, -, -, -, -, -, -, -, -, -, -, -, -, -, e70, e71⟩ := idx_facts0 ⟨((i 0).val / 512 * 8 + (i 1).val / 512) * 2 + 1, htN⟩
  have e70' : win0_7.index ⟨((i 0).val / 512 * 8 + (i 1).val / 512) * 2 + 1, htN⟩ (0 : Fin 2) = (((i 0).val / 512 * 8 + (i 1).val / 512) * 2 + 1) / 16 := e70
  have e71' : win0_7.index ⟨((i 0).val / 512 * 8 + (i 1).val / 512) * 2 + 1, htN⟩ (1 : Fin 2) = (((i 0).val / 512 * 8 + (i 1).val / 512) * 2 + 1) / 2 % 8 := e71
  intro a
  match a with
  | ⟨0, _⟩ => show win0_7.index _ (0 : Fin 2) * 512 ≤ (i 0).val ∧ (i 0).val < win0_7.index _ (0 : Fin 2) * 512 + 512; omega
  | ⟨1, _⟩ => show win0_7.index _ (1 : Fin 2) * 512 ≤ (i 1).val ∧ (i 1).val < win0_7.index _ (1 : Fin 2) * 512 + 512; omega

theorem arrAt0_eq (c : Dev nD) : (dat0 V c).arrAt 7 cfg0.N = G0 V c :=
  (dat0 V c).arrAt_eq_of_cover 7 (G0 V c) (flushed0_eq V c) (cover0)

-- The region leaves the dense layer of the arrays it finds.
theorem final0 (c : Dev nD) (p : Fin 8192) (q : Fin 4096) :
    ((dat0 V c).arrAt 7 cfg0.N : S8192x4096.Idx → EReal) (ix2 p q)
      = dense relu
          (fun p k => (V c main_arg0 : S8192x1024.Idx → EReal) (ix2 p k))
          (weight (fun q k => (V c main_arg1 : S4096x1024.Idx → EReal) (ix2 q k)) (fun q k => (V c main_arg2 : S4096x1024.Idx → EReal) (ix2 q k)) (fun q k => (V c main_arg3 : S4096x1024.Idx → EReal) (ix2 q k)))
          (bias (fun q => (V c main_v0 : S1x4096.Idx → EReal) (ix2 0 q)) (fun q => (V c main_v1 : S1x4096.Idx → EReal) (ix2 0 q)) (fun q => (V c main_v2 : S1x4096.Idx → EReal) (ix2 0 q))) p q := by
  rw [arrAt0_eq V c]
  rfl

end

end Cert.KernelIdeal.Layers

end
-- ==== Proof.FrameIdeal.L1Pieces.lean ====
import proofs.«128668_j3307124817925_1_alg».proof.Proof.FrameIdeal.L1Frame
import Idealize.ShloMosaic.Lib.Pipeline.Value
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic Idealize.SL.Sem

variable {F : FTy → Type} [FloatOps F]

theorem hz1 : (![0, 0] : Fin 2 → Nat) = fun _ => 0 := funext fun a => by fin_cases a <;> rfl

section
variable (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole)

-- At the first block the accumulator ends at the tile product added to zero;
theorem sout1_A_eq (hc0 : cond1_0 i) (hc1 : ¬cond1_1 i)
    (x0 x1 x2 x3 : Vec F S512x512 .f32) (x4 x5 x6 : Vec F S1x512 .f32) :
    sout1_A c i arg3 harg3 arg4 harg4 arg5 harg5 arg6 harg6 arg7 harg7 arg8 harg8 arg9 harg9 arg10 harg10 arg11 harg11 hc0 hc1 x0 x1 x2 x3 x4 x5 x6 = k1_pay2 x0 x2 x1 x3 (k1_pay1 (F := F)) := by
  unfold sout1_A
  rw [View.read_writes_eq_canon _ _ _ (scover1_A c i arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S512x512) hz1, View.readCov_unit_zero (S := S512x512) _ hz1]
  simp only [View.readAt_eq_ld, harg3.read_unread, harg4.read_unread, harg5.read_unread, harg6.read_unread,
    View.ld_unit_zero (S := S512x512) hz1]

-- at every later block, at the product added to what it held.
theorem sout1_B_eq (hc0 : ¬cond1_0 i) (hc1 : ¬cond1_1 i)
    (x0 x1 x2 x3 : Vec F S512x512 .f32) (x4 x5 x6 : Vec F S1x512 .f32) (xs : Vec F S512x512 .f32) :
    sout1_B c i arg3 harg3 arg4 harg4 arg5 harg5 arg6 harg6 arg7 harg7 arg8 harg8 arg9 harg9 arg10 harg10 arg11 harg11 hc0 hc1 x0 x1 x2 x3 x4 x5 x6 xs = k1_pay2 x0 x2 x1 x3 xs := by
  unfold sout1_B
  rw [View.read_writes_eq_canon _ _ _ (scover1_B c i arg3 harg3 arg4 harg4 arg5 harg5 arg6 harg6 arg7 harg7 arg8 harg8 arg9 harg9 arg10 harg10 arg11 harg11 hc0 hc1 x0 x1 x2 x3 x4 x5 x6 xs)]
  unfold kernelRun1_B
  dsimp only
  sl_unfold_words
  rw [View.canon_unit_zero hz1]
  simp only [View.readAt_eq_ld, harg3.read_unread, harg4.read_unread, harg5.read_unread, harg6.read_unread,
    harg11.read_unread, View.ld_unit_zero (S := S512x512) hz1]

theorem sout1_C_eq (hc0 : ¬cond1_0 i) (hc1 : cond1_1 i)
    (x0 x1 x2 x3 : Vec F S512x512 .f32) (x4 x5 x6 : Vec F S1x512 .f32) (xs : Vec F S512x512 .f32) :
    sout1_C c i arg3 harg3 arg4 harg4 arg5 harg5 arg6 harg6 arg7 harg7 arg8 harg8 arg9 harg9 arg10 harg10 arg11 harg11 hc0 hc1 x0 x1 x2 x3 x4 x5 x6 xs = k1_pay2 x0 x2 x1 x3 xs := by
  unfold sout1_C
  rw [View.read_writes_eq_canon _ _ _ (scover1_C c i arg3 harg3 arg4 harg4 arg5 harg5 arg6 harg6 arg7 harg7 arg8 harg8 arg9 harg9 arg10 harg10 arg11 harg11 hc0 hc1 x0 x1 x2 x3 x4 x5 x6 xs)]
  unfold kernelRun1_C
  dsimp only
  sl_unfold_words
  rw [View.canon_unit_zero hz1]
  simp only [View.readAt_eq_ld, harg3.read_unread, harg4.read_unread, harg5.read_unread, harg6.read_unread,
    harg11.read_unread, View.ld_unit_zero (S := S512x512) hz1]

-- The stored tile is the accumulator plus the bias row, rectified.
theorem out1_C_7_eq (hc0 : ¬cond1_0 i) (hc1 : cond1_1 i)
    (x0 x1 x2 x3 : Vec F S512x512 .f32) (x4 x5 x6 : Vec F S1x512 .f32) (xs : Vec F S512x512 .f32) :
    out1_C_7 c i arg3 harg3 arg4 harg4 arg5 harg5 arg6 harg6 arg7 harg7 arg8 harg8 arg9 harg9 arg10 harg10 arg11 harg11 hc0 hc1 x0 x1 x2 x3 x4 x5 x6 xs = k1_pay3 x5 x4 x6 (k1_pay2 x0 x2 x1 x3 xs) := by
  unfold out1_C_7
  rw [View.read_writes_eq_canon _ _ _ (cover1_C_7 c i arg3 harg3 arg4 harg4 arg5 harg5 arg6 harg6 arg7 harg7 arg8 harg8 arg9 harg9 arg10 harg10 arg11 harg11 hc0 hc1 x0 x1 x2 x3 x4 x5 x6 xs)]
  unfold kernelRun1_C
  dsimp only
  sl_unfold_words
  rw [View.canon_unit_zero hz1]
  simp only [View.readAt_eq_ld, harg3.read_unread, harg4.read_unread, harg5.read_unread, harg6.read_unread,
    harg7.read_unread, harg8.read_unread, harg9.read_unread, harg11.read_unread,
    View.readCov_unit_zero (S := S512x512) _ hz1, View.ld_unit_zero (S := S512x512) hz1, View.ld_unit_zero (S := S1x512) hz1]

end

end Cert.KernelIdeal.Layers

end
-- ==== Proof.FrameIdeal.L1Blocks.lean ====
import proofs.«128668_j3307124817925_1_alg».proof.Proof.FrameIdeal.L1Setup
import Idealize.ShloMosaic.Lib.ValueIdx

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx

variable {F : FTy → Type} [FloatOps F]

section
variable (V : (c : Dev nD) → (b : Ref sig .tc) → Buf (Elt F) ((c : Thread nD τ).loc b))

abbrev xblk1 (c : Dev nD) (t : Fin cfg1.N) : Vec F S512x512 .f32 := iblk1 V c 0 t

abbrev xarr1 (c : Dev nD) : Vec F S8192x4096 .f32 := V c main_v3

abbrev mWblk1 (c : Dev nD) (t : Fin cfg1.N) : Vec F S512x512 .f32 := iblk1 V c 1 t
abbrev sWblk1 (c : Dev nD) (t : Fin cfg1.N) : Vec F S512x512 .f32 := iblk1 V c 2 t
abbrev zWblk1 (c : Dev nD) (t : Fin cfg1.N) : Vec F S512x512 .f32 := iblk1 V c 3 t
abbrev mWarr1 (c : Dev nD) : Vec F S4096x4096 .f32 := V c main_arg7
abbrev sWarr1 (c : Dev nD) : Vec F S4096x4096 .f32 := V c main_arg8
abbrev zWarr1 (c : Dev nD) : Vec F S4096x4096 .f32 := V c main_arg9

abbrev mbblk1 (c : Dev nD) (t : Fin cfg1.N) : Vec F S1x512 .f32 := iblk1 V c 4 t
abbrev sbblk1 (c : Dev nD) (t : Fin cfg1.N) : Vec F S1x512 .f32 := iblk1 V c 5 t
abbrev zbblk1 (c : Dev nD) (t : Fin cfg1.N) : Vec F S1x512 .f32 := iblk1 V c 6 t
abbrev mbarr1 (c : Dev nD) : Vec F S1x4096 .f32 := V c main_v4
abbrev sbarr1 (c : Dev nD) : Vec F S1x4096 .f32 := V c main_v5
abbrev zbarr1 (c : Dev nD) : Vec F S1x4096 .f32 := V c main_v6

-- Each window's block index is arithmetic in the point's number.
theorem idx_facts1 : ∀ t : Fin cfg1.N,
    win1_0.index t (0 : Fin 2) = t.val / 64 ∧ win1_0.index t (1 : Fin 2) = t.val % 8
    ∧ win1_1.index t (0 : Fin 2) = t.val / 8 % 8 ∧ win1_1.index t (1 : Fin 2) = t.val % 8
    ∧ win1_2.index t (0 : Fin 2) = t.val / 8 % 8 ∧ win1_2.index t (1 : Fin 2) = t.val % 8
    ∧ win1_3.index t (0 : Fin 2) = t.val / 8 % 8 ∧ win1_3.index t (1 : Fin 2) = t.val % 8
    ∧ win1_4.index t (0 : Fin 2) = 0 ∧ win1_4.index t (1 : Fin 2) = t.val / 8 % 8
    ∧ win1_5.index t (0 : Fin 2) = 0 ∧ win1_5.index t (1 : Fin 2) = t.val / 8 % 8
    ∧ win1_6.index t (0 : Fin 2) = 0 ∧ win1_6.index t (1 : Fin 2) = t.val / 8 % 8
    ∧ win1_7.index t (0 : Fin 2) = t.val / 64 ∧ win1_7.index t (1 : Fin 2) = t.val / 8 % 8 :=
  (by decide +kernel : ∀ t : Fin grid1.N, _)

-- Entry (a, b) of a block is entry (512 * row block + a, 512 * column block + b) of its array.
theorem xblk1_apply (c : Dev nD) (t : Fin cfg1.N) (a b : Fin 512) (p : Fin 8192) (q : Fin 4096)
    (hp : p.val = t.val / 64 * 512 + a.val) (hq : q.val = t.val % 8 * 512 + b.val) :
    xblk1 V c t (ix2 a b) = xarr1 V c (ix2 p q) := by
  obtain ⟨e0, e1, -⟩ := idx_facts1 t
  show xarr1 V c (((cfg1.win 0).blk t).view.emb (ix2 a b)) = xarr1 V c (ix2 p q)
  refine congrArg (xarr1 V c) (funext fun ax => Fin.ext ?_)
  match ax with
  | ⟨0, _⟩ => show win1_0.index t (0 : Fin 2) * 512 + 1 * a.val = p.val; omega
  | ⟨1, _⟩ => show win1_0.index t (1 : Fin 2) * 512 + 1 * b.val = q.val; omega

theorem mWblk1_apply (c : Dev nD) (t : Fin cfg1.N) (a b : Fin 512) (p : Fin 4096) (q : Fin 4096)
    (hp : p.val = t.val / 8 % 8 * 512 + a.val) (hq : q.val = t.val % 8 * 512 + b.val) :
    mWblk1 V c t (ix2 a b) = mWarr1 V c (ix2 p q) := by
  obtain ⟨-, -, e10, e11, e20, e21, e30, e31, -⟩ := idx_facts1 t
  show mWarr1 V c (((cfg1.win 1).blk t).view.emb (ix2 a b)) = mWarr1 V c (ix2 p q)
  refine congrArg (mWarr1 V c) (funext fun ax => Fin.ext ?_)
  match ax with
  | ⟨0, _⟩ => show win1_1.index t (0 : Fin 2) * 512 + 1 * a.val = p.val; omega
  | ⟨1, _⟩ => show win1_1.index t (1 : Fin 2) * 512 + 1 * b.val = q.val; omega

theorem sWblk1_apply (c : Dev nD) (t : Fin cfg1.N) (a b : Fin 512) (p : Fin 4096) (q : Fin 4096)
    (hp : p.val = t.val / 8 % 8 * 512 + a.val) (hq : q.val = t.val % 8 * 512 + b.val) :
    sWblk1 V c t (ix2 a b) = sWarr1 V c (ix2 p q) := by
  obtain ⟨-, -, e10, e11, e20, e21, e30, e31, -⟩ := idx_facts1 t
  show sWarr1 V c (((cfg1.win 2).blk t).view.emb (ix2 a b)) = sWarr1 V c (ix2 p q)
  refine congrArg (sWarr1 V c) (funext fun ax => Fin.ext ?_)
  match ax with
  | ⟨0, _⟩ => show win1_2.index t (0 : Fin 2) * 512 + 1 * a.val = p.val; omega
  | ⟨1, _⟩ => show win1_2.index t (1 : Fin 2) * 512 + 1 * b.val = q.val; omega

theorem zWblk1_apply (c : Dev nD) (t : Fin cfg1.N) (a b : Fin 512) (p : Fin 4096) (q : Fin 4096)
    (hp : p.val = t.val / 8 % 8 * 512 + a.val) (hq : q.val = t.val % 8 * 512 + b.val) :
    zWblk1 V c t (ix2 a b) = zWarr1 V c (ix2 p q) := by
  obtain ⟨-, -, e10, e11, e20, e21, e30, e31, -⟩ := idx_facts1 t
  show zWarr1 V c (((cfg1.win 3).blk t).view.emb (ix2 a b)) = zWarr1 V c (ix2 p q)
  refine congrArg (zWarr1 V c) (funext fun ax => Fin.ext ?_)
  match ax with
  | ⟨0, _⟩ => show win1_3.index t (0 : Fin 2) * 512 + 1 * a.val = p.val; omega
  | ⟨1, _⟩ => show win1_3.index t (1 : Fin 2) * 512 + 1 * b.val = q.val; omega

theorem mbblk1_apply (c : Dev nD) (t : Fin cfg1.N) (r r' : Fin 1) (b : Fin 512) (q : Fin 4096)
    (hq : q.val = t.val / 8 % 8 * 512 + b.val) :
    mbblk1 V c t (ix2 r b) = mbarr1 V c (ix2 r' q) := by
  obtain ⟨-, -, -, -, -, -, -, -, e40, e41, e50, e51, e60, e61, -⟩ := idx_facts1 t
  have hr : r.val < 1 := r.isLt
  have hr' : r'.val < 1 := r'.isLt
  show mbarr1 V c (((cfg1.win 4).blk t).view.emb (ix2 r b)) = mbarr1 V c (ix2 r' q)
  refine congrArg (mbarr1 V c) (funext fun ax => Fin.ext ?_)
  match ax with
  | ⟨0, _⟩ => show win1_4.index t (0 : Fin 2) * 1 + 1 * r.val = r'.val; omega
  | ⟨1, _⟩ => show win1_4.index t (1 : Fin 2) * 512 + 1 * b.val = q.val; omega

theorem sbblk1_apply (c : Dev nD) (t : Fin cfg1.N) (r r' : Fin 1) (b : Fin 512) (q : Fin 4096)
    (hq : q.val = t.val / 8 % 8 * 512 + b.val) :
    sbblk1 V c t (ix2 r b) = sbarr1 V c (ix2 r' q) := by
  obtain ⟨-, -, -, -, -, -, -, -, e40, e41, e50, e51, e60, e61, -⟩ := idx_facts1 t
  have hr : r.val < 1 := r.isLt
  have hr' : r'.val < 1 := r'.isLt
  show sbarr1 V c (((cfg1.win 5).blk t).view.emb (ix2 r b)) = sbarr1 V c (ix2 r' q)
  refine congrArg (sbarr1 V c) (funext fun ax => Fin.ext ?_)
  match ax with
  | ⟨0, _⟩ => show win1_5.index t (0 : Fin 2) * 1 + 1 * r.val = r'.val; omega
  | ⟨1, _⟩ => show win1_5.index t (1 : Fin 2) * 512 + 1 * b.val = q.val; omega

theorem zbblk1_apply (c : Dev nD) (t : Fin cfg1.N) (r r' : Fin 1) (b : Fin 512) (q : Fin 4096)
    (hq : q.val = t.val / 8 % 8 * 512 + b.val) :
    zbblk1 V c t (ix2 r b) = zbarr1 V c (ix2 r' q) := by
  obtain ⟨-, -, -, -, -, -, -, -, e40, e41, e50, e51, e60, e61, -⟩ := idx_facts1 t
  have hr : r.val < 1 := r.isLt
  have hr' : r'.val < 1 := r'.isLt
  show zbarr1 V c (((cfg1.win 6).blk t).view.emb (ix2 r b)) = zbarr1 V c (ix2 r' q)
  refine congrArg (zbarr1 V c) (funext fun ax => Fin.ext ?_)
  match ax with
  | ⟨0, _⟩ => show win1_6.index t (0 : Fin 2) * 1 + 1 * r.val = r'.val; omega
  | ⟨1, _⟩ => show win1_6.index t (1 : Fin 2) * 512 + 1 * b.val = q.val; omega

theorem oblk1_read_apply (G : Vec F S8192x4096 .f32) (t : Fin cfg1.N) (a b : Fin 512) (p : Fin 8192) (q : Fin 4096)
    (hp : p.val = t.val / 64 * 512 + a.val) (hq : q.val = t.val / 8 % 8 * 512 + b.val) :
    (((cfg1.win 7).blk t).view.read (Elt F) G : Vec F S512x512 .f32) (ix2 a b) = G (ix2 p q) := by
  obtain ⟨-, -, -, -, -, -, -, -, -, -, -, -, -, -, e70, e71⟩ := idx_facts1 t
  show G (((cfg1.win 7).blk t).view.emb (ix2 a b)) = G (ix2 p q)
  refine congrArg G (funext fun ax => Fin.ext ?_)
  match ax with
  | ⟨0, _⟩ => show win1_7.index t (0 : Fin 2) * 512 + 1 * a.val = p.val; omega
  | ⟨1, _⟩ => show win1_7.index t (1 : Fin 2) * 512 + 1 * b.val = q.val; omega

end

end Cert.KernelIdeal.Layers

end
-- ==== Proof.FrameIdeal.L1Acc.lean ====
import proofs.«128668_j3307124817925_1_alg».proof.Proof.FrameIdeal.L1Pieces
import proofs.«128668_j3307124817925_1_alg».proof.Proof.FrameIdeal.L1Blocks
import proofs.«128668_j3307124817925_1_alg».proof.Proof.Payload
import proofs.«128668_j3307124817925_1_alg».proof.Proof.Algebra

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx Cert.BayesMlp

section
variable (V : (c : Dev nD) → (b : Ref sig .tc) → Buf (Elt Ideal) ((c : Thread nD τ).loc b))

def X1 (c : Dev nD) : Fin 8192 → Fin 4096 → EReal := fun p k => xarr1 V c (ix2 p k)

def A1 (c : Dev nD) : Fin 4096 → Fin 4096 → EReal :=
  weight (fun q k => mWarr1 V c (ix2 q k)) (fun q k => sWarr1 V c (ix2 q k)) (fun q k => zWarr1 V c (ix2 q k))

def B1 (c : Dev nD) : Fin 4096 → EReal :=
  bias (fun q => mbarr1 V c (ix2 0 q)) (fun q => sbarr1 V c (ix2 0 q)) (fun q => zbarr1 V c (ix2 0 q))

def term1 (c : Dev nD) (p : Fin 8192) (q : Fin 4096) (n : Nat) : EReal :=
  if h : n < 4096 then X1 V c p ⟨n, h⟩ * A1 V c q ⟨n, h⟩ else 0

-- The tile product at a point is one block of 512 of the contraction's terms.
theorem step1 (c : Dev nD) (t : Fin cfg1.N) (a b : Fin 512) (p : Fin 8192) (q : Fin 4096)
    (hp : p.val = t.val / 64 * 512 + a.val) (hq : q.val = t.val / 8 % 8 * 512 + b.val) :
    ∑ k : Fin 512, xblk1 V c t (ix2 a k) * (mWblk1 V c t (ix2 b k) + softplus (sWblk1 V c t (ix2 b k)) * zWblk1 V c t (ix2 b k))
      = ∑ k : Fin 512, term1 V c p q (t.val % 8 * 512 + k.val) := by
  refine Finset.sum_congr rfl fun k _ => ?_
  have hk : t.val % 8 * 512 + k.val < 4096 := by have := k.isLt; omega
  rw [term1, dif_pos hk,
    xblk1_apply V c t a k p ⟨t.val % 8 * 512 + k.val, hk⟩ hp rfl,
    mWblk1_apply V c t b k q ⟨t.val % 8 * 512 + k.val, hk⟩ hq rfl,
    sWblk1_apply V c t b k q ⟨t.val % 8 * 512 + k.val, hk⟩ hq rfl,
    zWblk1_apply V c t b k q ⟨t.val % 8 * 512 + k.val, hk⟩ hq rfl]
  rfl

theorem pay2_step1 (c : Dev nD) (t : Fin cfg1.N) (a b : Fin 512) (p : Fin 8192) (q : Fin 4096)
    (hp : p.val = t.val / 64 * 512 + a.val) (hq : q.val = t.val / 8 % 8 * 512 + b.val)
    (xs : Vec Ideal S512x512 .f32) (hxs : xs (ix2 a b) = blockSum (term1 V c p q) (t.val % 8)) :
    k1_pay2 (xblk1 V c t) (sWblk1 V c t) (mWblk1 V c t) (zWblk1 V c t) xs (ix2 a b)
      = blockSum (term1 V c p q) (t.val % 8 + 1) :=
  (Payload.k1_pay2_apply (xblk1 V c t) (sWblk1 V c t) (mWblk1 V c t) (zWblk1 V c t) xs a b).trans
    (congrArg₂ (· + ·) hxs (step1 V c t a b p q hp hq))

theorem acc1_A (c : Dev nD) (t : Fin cfg1.N) (h0 : t.val % 8 = 0) (h1 : ¬t.val % 8 = 7) (a b : Fin 512) (p : Fin 8192) (q : Fin 4096)
    (hp : p.val = t.val / 64 * 512 + a.val) (hq : q.val = t.val / 8 % 8 * 512 + b.val) :
    (outsAt1 V c t.val t.isLt).2 (ix2 a b) = blockSum (term1 V c p q) (t.val % 8 + 1) := by
  rw [outsAt1_A V c t h0 h1]
  dsimp only
  refine (congrFun (sout1_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) (ix2 a b)).trans ?_
  refine pay2_step1 V c t a b p q hp hq (k1_pay1 (F := Ideal)) ?_
  rw [h0]
  exact Payload.k1_pay1_apply _

theorem acc1_B (c : Dev nD) (t : Fin cfg1.N) (h0 : ¬t.val % 8 = 0) (h1 : ¬t.val % 8 = 7) (a b : Fin 512) (p : Fin 8192) (q : Fin 4096)
    (hp : p.val = t.val / 64 * 512 + a.val) (hq : q.val = t.val / 8 % 8 * 512 + b.val)
    (ih : (outsAt1 V c (t.val - 1) (Nat.lt_of_le_of_lt (Nat.sub_le _ _) t.isLt)).2 (ix2 a b) = blockSum (term1 V c p q) (t.val % 8)) :
    (outsAt1 V c t.val t.isLt).2 (ix2 a b) = blockSum (term1 V c p q) (t.val % 8 + 1) := by
  rw [outsAt1_B V c t h0 h1]
  dsimp only
  refine (congrFun (sout1_B_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) (ix2 a b)).trans ?_
  exact pay2_step1 V c t a b p q hp hq _ ih

theorem acc1_C (c : Dev nD) (t : Fin cfg1.N) (h0 : ¬t.val % 8 = 0) (h1 : t.val % 8 = 7) (a b : Fin 512) (p : Fin 8192) (q : Fin 4096)
    (hp : p.val = t.val / 64 * 512 + a.val) (hq : q.val = t.val / 8 % 8 * 512 + b.val)
    (ih : (outsAt1 V c (t.val - 1) (Nat.lt_of_le_of_lt (Nat.sub_le _ _) t.isLt)).2 (ix2 a b) = blockSum (term1 V c p q) (t.val % 8)) :
    (outsAt1 V c t.val t.isLt).2 (ix2 a b) = blockSum (term1 V c p q) (t.val % 8 + 1) := by
  rw [outsAt1_C V c t h0 h1]
  dsimp only
  refine (congrFun (sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) (ix2 a b)).trans ?_
  exact pay2_step1 V c t a b p q hp hq _ ih

-- By induction on the point: after block k the accumulator holds the sum of the first k + 1 blocks.
theorem acc1_eq (c : Dev nD) : ∀ (n : ℕ) (hn : n < cfg1.N) (a b : Fin 512) (p : Fin 8192) (q : Fin 4096),
    p.val = n / 64 * 512 + a.val → q.val = n / 8 % 8 * 512 + b.val →
    (outsAt1 V c n hn).2 (ix2 a b) = blockSum (term1 V c p q) (n % 8 + 1)
  | 0, hn, a, b, p, q, hp, hq => acc1_A V c ⟨0, hn⟩ rfl (by show ¬(0 % 8 = 7); decide) a b p q hp hq
  | n + 1, hn, a, b, p, q, hp, hq => by
    by_cases h0 : (n + 1) % 8 = 0
    · exact acc1_A V c ⟨n + 1, hn⟩ h0 (by show ¬((n + 1) % 8 = 7); omega) a b p q hp hq
    · have ih := acc1_eq c n (Nat.lt_of_succ_lt hn) a b p q (by omega) (by omega)
      rw [show n % 8 + 1 = (n + 1) % 8 from by omega] at ih
      by_cases h1 : (n + 1) % 8 = 7
      · exact acc1_C V c ⟨n + 1, hn⟩ h0 h1 a b p q hp hq ih
      · exact acc1_B V c ⟨n + 1, hn⟩ h0 h1 a b p q hp hq ih

-- So a stored entry is the dense layer's value there.
theorem out1_eq (c : Dev nD) (t : Fin cfg1.N) (h1 : t.val % 8 = 7) (a b : Fin 512) (p : Fin 8192) (q : Fin 4096)
    (hp : p.val = t.val / 64 * 512 + a.val) (hq : q.val = t.val / 8 % 8 * 512 + b.val) :
    (outsAt1 V c t.val t.isLt).1 (ix2 a b) = relu (blockSum (term1 V c p q) 8 + B1 V c q) := by
  have h0 : ¬t.val % 8 = 0 := by omega
  have ih : (outsAt1 V c (t.val - 1) (Nat.lt_of_le_of_lt (Nat.sub_le _ _) t.isLt)).2 (ix2 a b) = blockSum (term1 V c p q) (t.val % 8) := by
    have := acc1_eq V c (t.val - 1) (Nat.lt_of_le_of_lt (Nat.sub_le _ _) t.isLt) a b p q (by omega) (by omega)
    rw [show (t.val - 1) % 8 + 1 = t.val % 8 from by omega] at this
    exact this
  rw [outsAt1_C V c t h0 h1]
  dsimp only
  refine (congrFun (out1_C_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) (ix2 a b)).trans ?_
  refine (Payload.k1_pay3_apply (sbblk1 V c t) (mbblk1 V c t) (zbblk1 V c t)
    (k1_pay2 (xblk1 V c t) (sWblk1 V c t) (mWblk1 V c t) (zWblk1 V c t) (outsAt1 V c (t.val - 1) (Nat.lt_of_le_of_lt (Nat.sub_le _ _) t.isLt)).2) a b).trans ?_
  rw [pay2_step1 V c t a b p q hp hq _ ih, h1,
    mbblk1_apply V c t 0 0 b q hq, sbblk1_apply V c t 0 0 b q hq, zbblk1_apply V c t 0 0 b q hq]
  rfl

end

end Cert.KernelIdeal.Layers

end
-- ==== Proof.FrameIdeal.L1Value.lean ====
import proofs.«128668_j3307124817925_1_alg».proof.Proof.FrameIdeal.L1Acc
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx Cert.BayesMlp
open Idealize.ShloMosaic.Pipeline (Dat)

section
variable (V : (c : Dev nD) → (b : Ref sig .tc) → Buf (Elt Ideal) ((c : Thread nD τ).loc b))

def G1 (c : Dev nD) : Vec Ideal S8192x4096 .f32 := fun i => dense relu (X1 V c) (A1 V c) (B1 V c) (i 0) (i 1)

-- All 8 blocks together are the whole contraction.
theorem blockSum_term1 (c : Dev nD) (p : Fin 8192) (q : Fin 4096) :
    blockSum (term1 V c p q) 8 = ∑ k : Fin 4096, X1 V c p k * A1 V c q k := by
  rw [blockSum_eq]
  show ∑ k : Fin 4096, term1 V c p q k.val = _
  refine Finset.sum_congr rfl fun k _ => ?_
  rw [term1, dif_pos k.isLt]

theorem flushed1_eq (c : Dev nD) (t : Fin cfg1.N) (hf : (cfg1.win 7).flush t = true) :
    (dat1 V c).flushed 7 t = ((cfg1.win 7).blk t).view.read (Elt Ideal) (G1 V c) := by
  have h1 : t.val % 8 = 7 := (flush1_7 t).mp hf
  have hN : cfg1.N = 1024 := N_1
  have ht : t.val < cfg1.N := t.isLt
  show (cfg1.win 7).cut (grid1.coords t) ((dat1 V c).after 7 t) = _
  rw [after1_7]
  funext y
  obtain ⟨a, b, rfl⟩ : ∃ (a b : Fin 512), y = ix2 a b := ⟨y 0, y 1, eq_ix2 y⟩
  have hp : t.val / 64 * 512 + a.val < 8192 := by have := a.isLt; omega
  have hq : t.val / 8 % 8 * 512 + b.val < 4096 := by have := b.isLt; omega
  refine (out1_eq V c t h1 a b ⟨t.val / 64 * 512 + a.val, hp⟩ ⟨t.val / 8 % 8 * 512 + b.val, hq⟩ rfl rfl).trans ?_
  refine Eq.trans ?_ (oblk1_read_apply (G1 V c) t a b ⟨t.val / 64 * 512 + a.val, hp⟩ ⟨t.val / 8 % 8 * 512 + b.val, hq⟩ rfl rfl).symm
  rw [blockSum_term1]
  rfl

theorem mem_oblk1 (t : Fin cfg1.N) (i : S8192x4096.Idx) :
    i ∈ ((cfg1.win 7).blk t).view.set ↔ ∀ a : Fin 2, win1_7.index t a * S512x512.size a ≤ (i a).val ∧ (i a).val < win1_7.index t a * S512x512.size a + S512x512.size a := by
  show i ∈ ((View.whole main_v7).slice (win1_7.rect t)).set ↔ _
  rw [View.set_slice_whole, Rect.mem_set_unit]
  exact Iff.rfl

-- The stored tiles cover the output array.
theorem cover1 (i : S8192x4096.Idx) :
    ∃ t : Fin cfg1.N, (cfg1.win 7).flush t = true ∧ i ∈ ((cfg1.win 7).blk t).view.set := by
  have hN : cfg1.N = 1024 := N_1
  have hi0 : (i 0).val < 8192 := (i 0).isLt
  have hi1 : (i 1).val < 4096 := (i 1).isLt
  have htN : ((i 0).val / 512 * 8 + (i 1).val / 512) * 8 + 7 < cfg1.N := by omega
  refine ⟨⟨((i 0).val / 512 * 8 + (i 1).val / 512) * 8 + 7, htN⟩, (flush1_7 _).mpr (by show (((i 0).val / 512 * 8 + (i 1).val / 512) * 8 + 7) % 8 = 7; omega), ?_⟩
  rw [mem_oblk1]
  obtain ⟨-, -, -, -, -, -, -, -, -, -, -, -, -, -, e70, e71⟩ := idx_facts1 ⟨((i 0).val / 512 * 8 + (i 1).val / 512) * 8 + 7, htN⟩
  have e70' : win1_7.index ⟨((i 0).val / 512 * 8 + (i 1).val / 512) * 8 + 7, htN⟩ (0 : Fin 2) = (((i 0).val / 512 * 8 + (i 1).val / 512) * 8 + 7) / 64 := e70
  have e71' : win1_7.index ⟨((i 0).val / 512 * 8 + (i 1).val / 512) * 8 + 7, htN⟩ (1 : Fin 2) = (((i 0).val / 512 * 8 + (i 1).val / 512) * 8 + 7) / 8 % 8 := e71
  intro a
  match a with
  | ⟨0, _⟩ => show win1_7.index _ (0 : Fin 2) * 512 ≤ (i 0).val ∧ (i 0).val < win1_7.index _ (0 : Fin 2) * 512 + 512; omega
  | ⟨1, _⟩ => show win1_7.index _ (1 : Fin 2) * 512 ≤ (i 1).val ∧ (i 1).val < win1_7.index _ (1 : Fin 2) * 512 + 512; omega

theorem arrAt1_eq (c : Dev nD) : (dat1 V c).arrAt 7 cfg1.N = G1 V c :=
  (dat1 V c).arrAt_eq_of_cover 7 (G1 V c) (flushed1_eq V c) (cover1)

-- The region leaves the dense layer of the arrays it finds.
theorem final1 (c : Dev nD) (p : Fin 8192) (q : Fin 4096) :
    ((dat1 V c).arrAt 7 cfg1.N : S8192x4096.Idx → EReal) (ix2 p q)
      = dense relu
          (fun p k => (V c main_v3 : S8192x4096.Idx → EReal) (ix2 p k))
          (weight (fun q k => (V c main_arg7 : S4096x4096.Idx → EReal) (ix2 q k)) (fun q k => (V c main_arg8 : S4096x4096.Idx → EReal) (ix2 q k)) (fun q k => (V c main_arg9 : S4096x4096.Idx → EReal) (ix2 q k)))
          (bias (fun q => (V c main_v4 : S1x4096.Idx → EReal) (ix2 0 q)) (fun q => (V c main_v5 : S1x4096.Idx → EReal) (ix2 0 q)) (fun q => (V c main_v6 : S1x4096.Idx → EReal) (ix2 0 q))) p q := by
  rw [arrAt1_eq V c]
  rfl

end

end Cert.KernelIdeal.Layers

end
-- ==== Proof.FrameIdeal.L2Pieces.lean ====
import proofs.«128668_j3307124817925_1_alg».proof.Proof.FrameIdeal.L2Frame
import Idealize.ShloMosaic.Lib.Pipeline.Value
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

section
variable (c : Dev nD) (i : grid2.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole)

-- At the first block the accumulator ends at the tile product added to zero;
theorem sout2_A_eq (hc0 : cond2_0 i) (hc1 : ¬cond2_1 i)
    (x0 x1 x2 x3 : Vec F S512x512 .f32) (x4 x5 x6 : Vec F S1x512 .f32) :
    sout2_A c i arg3 harg3 arg4 harg4 arg5 harg5 arg6 harg6 arg7 harg7 arg8 harg8 arg9 harg9 arg10 harg10 arg11 harg11 hc0 hc1 x0 x1 x2 x3 x4 x5 x6 = k2_pay2 x0 x2 x1 x3 (k2_pay1 (F := F)) := by
  unfold sout2_A
  rw [View.read_writes_eq_canon _ _ _ (scover2_A c i arg3 harg3 arg4 harg4 arg5 harg5 arg6 harg6 arg7 harg7 arg8 harg8 arg9 harg9 arg10 harg10 arg11 harg11 hc0 hc1 x0 x1 x2 x3 x4 x5 x6)]
  unfold kernelRun2_A
  dsimp only
  sl_unfold_words
  rw [View.canon_cons_unit_zero (S := S512x512) hz2, View.readCov_unit_zero (S := S512x512) _ hz2]
  simp only [View.readAt_eq_ld, harg3.read_unread, harg4.read_unread, harg5.read_unread, harg6.read_unread,
    View.ld_unit_zero (S := S512x512) hz2]

-- at every later block, at the product added to what it held.
theorem sout2_B_eq (hc0 : ¬cond2_0 i) (hc1 : ¬cond2_1 i)
    (x0 x1 x2 x3 : Vec F S512x512 .f32) (x4 x5 x6 : Vec F S1x512 .f32) (xs : Vec F S512x512 .f32) :
    sout2_B c i arg3 harg3 arg4 harg4 arg5 harg5 arg6 harg6 arg7 harg7 arg8 harg8 arg9 harg9 arg10 harg10 arg11 harg11 hc0 hc1 x0 x1 x2 x3 x4 x5 x6 xs = k2_pay2 x0 x2 x1 x3 xs := by
  unfold sout2_B
  rw [View.read_writes_eq_canon _ _ _ (scover2_B c i arg3 harg3 arg4 harg4 arg5 harg5 arg6 harg6 arg7 harg7 arg8 harg8 arg9 harg9 arg10 harg10 arg11 harg11 hc0 hc1 x0 x1 x2 x3 x4 x5 x6 xs)]
  unfold kernelRun2_B
  dsimp only
  sl_unfold_words
  rw [View.canon_unit_zero hz2]
  simp only [View.readAt_eq_ld, harg3.read_unread, harg4.read_unread, harg5.read_unread, harg6.read_unread,
    harg11.read_unread, View.ld_unit_zero (S := S512x512) hz2]

theorem sout2_C_eq (hc0 : ¬cond2_0 i) (hc1 : cond2_1 i)
    (x0 x1 x2 x3 : Vec F S512x512 .f32) (x4 x5 x6 : Vec F S1x512 .f32) (xs : Vec F S512x512 .f32) :
    sout2_C c i arg3 harg3 arg4 harg4 arg5 harg5 arg6 harg6 arg7 harg7 arg8 harg8 arg9 harg9 arg10 harg10 arg11 harg11 hc0 hc1 x0 x1 x2 x3 x4 x5 x6 xs = k2_pay2 x0 x2 x1 x3 xs := by
  unfold sout2_C
  rw [View.read_writes_eq_canon _ _ _ (scover2_C c i arg3 harg3 arg4 harg4 arg5 harg5 arg6 harg6 arg7 harg7 arg8 harg8 arg9 harg9 arg10 harg10 arg11 harg11 hc0 hc1 x0 x1 x2 x3 x4 x5 x6 xs)]
  unfold kernelRun2_C
  dsimp only
  sl_unfold_words
  rw [View.canon_unit_zero hz2]
  simp only [View.readAt_eq_ld, harg3.read_unread, harg4.read_unread, harg5.read_unread, harg6.read_unread,
    harg11.read_unread, View.ld_unit_zero (S := S512x512) hz2]

-- The stored tile is the accumulator plus the bias row.
theorem out2_C_7_eq (hc0 : ¬cond2_0 i) (hc1 : cond2_1 i)
    (x0 x1 x2 x3 : Vec F S512x512 .f32) (x4 x5 x6 : Vec F S1x512 .f32) (xs : Vec F S512x512 .f32) :
    out2_C_7 c i arg3 harg3 arg4 harg4 arg5 harg5 arg6 harg6 arg7 harg7 arg8 harg8 arg9 harg9 arg10 harg10 arg11 harg11 hc0 hc1 x0 x1 x2 x3 x4 x5 x6 xs = k2_pay3 x5 x4 x6 (k2_pay2 x0 x2 x1 x3 xs) := by
  unfold out2_C_7
  rw [View.read_writes_eq_canon _ _ _ (cover2_C_7 c i arg3 harg3 arg4 harg4 arg5 harg5 arg6 harg6 arg7 harg7 arg8 harg8 arg9 harg9 arg10 harg10 arg11 harg11 hc0 hc1 x0 x1 x2 x3 x4 x5 x6 xs)]
  unfold kernelRun2_C
  dsimp only
  sl_unfold_words
  rw [View.canon_unit_zero hz2]
  simp only [View.readAt_eq_ld, harg3.read_unread, harg4.read_unread, harg5.read_unread, harg6.read_unread,
    harg7.read_unread, harg8.read_unread, harg9.read_unread, harg11.read_unread,
    View.readCov_unit_zero (S := S512x512) _ hz2, View.ld_unit_zero (S := S512x512) hz2, View.ld_unit_zero (S := S1x512) hz2]

end

end Cert.KernelIdeal.Layers

end
-- ==== Proof.FrameIdeal.L2Blocks.lean ====
import proofs.«128668_j3307124817925_1_alg».proof.Proof.FrameIdeal.L2Setup
import Idealize.ShloMosaic.Lib.ValueIdx

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx

variable {F : FTy → Type} [FloatOps F]

section
variable (V : (c : Dev nD) → (b : Ref sig .tc) → Buf (Elt F) ((c : Thread nD τ).loc b))

abbrev xblk2 (c : Dev nD) (t : Fin cfg2.N) : Vec F S512x512 .f32 := iblk2 V c 0 t

abbrev xarr2 (c : Dev nD) : Vec F S8192x4096 .f32 := V c main_v7

abbrev mWblk2 (c : Dev nD) (t : Fin cfg2.N) : Vec F S512x512 .f32 := iblk2 V c 1 t
abbrev sWblk2 (c : Dev nD) (t : Fin cfg2.N) : Vec F S512x512 .f32 := iblk2 V c 2 t
abbrev zWblk2 (c : Dev nD) (t : Fin cfg2.N) : Vec F S512x512 .f32 := iblk2 V c 3 t
abbrev mWarr2 (c : Dev nD) : Vec F S1024x4096 .f32 := V c main_arg13
abbrev sWarr2 (c : Dev nD) : Vec F S1024x4096 .f32 := V c main_arg14
abbrev zWarr2 (c : Dev nD) : Vec F S1024x4096 .f32 := V c main_arg15

abbrev mbblk2 (c : Dev nD) (t : Fin cfg2.N) : Vec F S1x512 .f32 := iblk2 V c 4 t
abbrev sbblk2 (c : Dev nD) (t : Fin cfg2.N) : Vec F S1x512 .f32 := iblk2 V c 5 t
abbrev zbblk2 (c : Dev nD) (t : Fin cfg2.N) : Vec F S1x512 .f32 := iblk2 V c 6 t
abbrev mbarr2 (c : Dev nD) : Vec F S1x1024 .f32 := V c main_v8
abbrev sbarr2 (c : Dev nD) : Vec F S1x1024 .f32 := V c main_v9
abbrev zbarr2 (c : Dev nD) : Vec F S1x1024 .f32 := V c main_v10

-- Each window's block index is arithmetic in the point's number.
theorem idx_facts2 : ∀ t : Fin cfg2.N,
    win2_0.index t (0 : Fin 2) = t.val / 16 ∧ win2_0.index t (1 : Fin 2) = t.val % 8
    ∧ win2_1.index t (0 : Fin 2) = t.val / 8 % 2 ∧ win2_1.index t (1 : Fin 2) = t.val % 8
    ∧ win2_2.index t (0 : Fin 2) = t.val / 8 % 2 ∧ win2_2.index t (1 : Fin 2) = t.val % 8
    ∧ win2_3.index t (0 : Fin 2) = t.val / 8 % 2 ∧ win2_3.index t (1 : Fin 2) = t.val % 8
    ∧ win2_4.index t (0 : Fin 2) = 0 ∧ win2_4.index t (1 : Fin 2) = t.val / 8 % 2
    ∧ win2_5.index t (0 : Fin 2) = 0 ∧ win2_5.index t (1 : Fin 2) = t.val / 8 % 2
    ∧ win2_6.index t (0 : Fin 2) = 0 ∧ win2_6.index t (1 : Fin 2) = t.val / 8 % 2
    ∧ win2_7.index t (0 : Fin 2) = t.val / 16 ∧ win2_7.index t (1 : Fin 2) = t.val / 8 % 2 :=
  (by decide +kernel : ∀ t : Fin grid2.N, _)

-- Entry (a, b) of a block is entry (512 * row block + a, 512 * column block + b) of its array.
theorem xblk2_apply (c : Dev nD) (t : Fin cfg2.N) (a b : Fin 512) (p : Fin 8192) (q : Fin 4096)
    (hp : p.val = t.val / 16 * 512 + a.val) (hq : q.val = t.val % 8 * 512 + b.val) :
    xblk2 V c t (ix2 a b) = xarr2 V c (ix2 p q) := by
  obtain ⟨e0, e1, -⟩ := idx_facts2 t
  show xarr2 V c (((cfg2.win 0).blk t).view.emb (ix2 a b)) = xarr2 V c (ix2 p q)
  refine congrArg (xarr2 V c) (funext fun ax => Fin.ext ?_)
  match ax with
  | ⟨0, _⟩ => show win2_0.index t (0 : Fin 2) * 512 + 1 * a.val = p.val; omega
  | ⟨1, _⟩ => show win2_0.index t (1 : Fin 2) * 512 + 1 * b.val = q.val; omega

theorem mWblk2_apply (c : Dev nD) (t : Fin cfg2.N) (a b : Fin 512) (p : Fin 1024) (q : Fin 4096)
    (hp : p.val = t.val / 8 % 2 * 512 + a.val) (hq : q.val = t.val % 8 * 512 + b.val) :
    mWblk2 V c t (ix2 a b) = mWarr2 V c (ix2 p q) := by
  obtain ⟨-, -, e10, e11, e20, e21, e30, e31, -⟩ := idx_facts2 t
  show mWarr2 V c (((cfg2.win 1).blk t).view.emb (ix2 a b)) = mWarr2 V c (ix2 p q)
  refine congrArg (mWarr2 V c) (funext fun ax => Fin.ext ?_)
  match ax with
  | ⟨0, _⟩ => show win2_1.index t (0 : Fin 2) * 512 + 1 * a.val = p.val; omega
  | ⟨1, _⟩ => show win2_1.index t (1 : Fin 2) * 512 + 1 * b.val = q.val; omega

theorem sWblk2_apply (c : Dev nD) (t : Fin cfg2.N) (a b : Fin 512) (p : Fin 1024) (q : Fin 4096)
    (hp : p.val = t.val / 8 % 2 * 512 + a.val) (hq : q.val = t.val % 8 * 512 + b.val) :
    sWblk2 V c t (ix2 a b) = sWarr2 V c (ix2 p q) := by
  obtain ⟨-, -, e10, e11, e20, e21, e30, e31, -⟩ := idx_facts2 t
  show sWarr2 V c (((cfg2.win 2).blk t).view.emb (ix2 a b)) = sWarr2 V c (ix2 p q)
  refine congrArg (sWarr2 V c) (funext fun ax => Fin.ext ?_)
  match ax with
  | ⟨0, _⟩ => show win2_2.index t (0 : Fin 2) * 512 + 1 * a.val = p.val; omega
  | ⟨1, _⟩ => show win2_2.index t (1 : Fin 2) * 512 + 1 * b.val = q.val; omega

theorem zWblk2_apply (c : Dev nD) (t : Fin cfg2.N) (a b : Fin 512) (p : Fin 1024) (q : Fin 4096)
    (hp : p.val = t.val / 8 % 2 * 512 + a.val) (hq : q.val = t.val % 8 * 512 + b.val) :
    zWblk2 V c t (ix2 a b) = zWarr2 V c (ix2 p q) := by
  obtain ⟨-, -, e10, e11, e20, e21, e30, e31, -⟩ := idx_facts2 t
  show zWarr2 V c (((cfg2.win 3).blk t).view.emb (ix2 a b)) = zWarr2 V c (ix2 p q)
  refine congrArg (zWarr2 V c) (funext fun ax => Fin.ext ?_)
  match ax with
  | ⟨0, _⟩ => show win2_3.index t (0 : Fin 2) * 512 + 1 * a.val = p.val; omega
  | ⟨1, _⟩ => show win2_3.index t (1 : Fin 2) * 512 + 1 * b.val = q.val; omega

theorem mbblk2_apply (c : Dev nD) (t : Fin cfg2.N) (r r' : Fin 1) (b : Fin 512) (q : Fin 1024)
    (hq : q.val = t.val / 8 % 2 * 512 + b.val) :
    mbblk2 V c t (ix2 r b) = mbarr2 V c (ix2 r' q) := by
  obtain ⟨-, -, -, -, -, -, -, -, e40, e41, e50, e51, e60, e61, -⟩ := idx_facts2 t
  have hr : r.val < 1 := r.isLt
  have hr' : r'.val < 1 := r'.isLt
  show mbarr2 V c (((cfg2.win 4).blk t).view.emb (ix2 r b)) = mbarr2 V c (ix2 r' q)
  refine congrArg (mbarr2 V c) (funext fun ax => Fin.ext ?_)
  match ax with
  | ⟨0, _⟩ => show win2_4.index t (0 : Fin 2) * 1 + 1 * r.val = r'.val; omega
  | ⟨1, _⟩ => show win2_4.index t (1 : Fin 2) * 512 + 1 * b.val = q.val; omega

theorem sbblk2_apply (c : Dev nD) (t : Fin cfg2.N) (r r' : Fin 1) (b : Fin 512) (q : Fin 1024)
    (hq : q.val = t.val / 8 % 2 * 512 + b.val) :
    sbblk2 V c t (ix2 r b) = sbarr2 V c (ix2 r' q) := by
  obtain ⟨-, -, -, -, -, -, -, -, e40, e41, e50, e51, e60, e61, -⟩ := idx_facts2 t
  have hr : r.val < 1 := r.isLt
  have hr' : r'.val < 1 := r'.isLt
  show sbarr2 V c (((cfg2.win 5).blk t).view.emb (ix2 r b)) = sbarr2 V c (ix2 r' q)
  refine congrArg (sbarr2 V c) (funext fun ax => Fin.ext ?_)
  match ax with
  | ⟨0, _⟩ => show win2_5.index t (0 : Fin 2) * 1 + 1 * r.val = r'.val; omega
  | ⟨1, _⟩ => show win2_5.index t (1 : Fin 2) * 512 + 1 * b.val = q.val; omega

theorem zbblk2_apply (c : Dev nD) (t : Fin cfg2.N) (r r' : Fin 1) (b : Fin 512) (q : Fin 1024)
    (hq : q.val = t.val / 8 % 2 * 512 + b.val) :
    zbblk2 V c t (ix2 r b) = zbarr2 V c (ix2 r' q) := by
  obtain ⟨-, -, -, -, -, -, -, -, e40, e41, e50, e51, e60, e61, -⟩ := idx_facts2 t
  have hr : r.val < 1 := r.isLt
  have hr' : r'.val < 1 := r'.isLt
  show zbarr2 V c (((cfg2.win 6).blk t).view.emb (ix2 r b)) = zbarr2 V c (ix2 r' q)
  refine congrArg (zbarr2 V c) (funext fun ax => Fin.ext ?_)
  match ax with
  | ⟨0, _⟩ => show win2_6.index t (0 : Fin 2) * 1 + 1 * r.val = r'.val; omega
  | ⟨1, _⟩ => show win2_6.index t (1 : Fin 2) * 512 + 1 * b.val = q.val; omega

theorem oblk2_read_apply (G : Vec F S8192x1024 .f32) (t : Fin cfg2.N) (a b : Fin 512) (p : Fin 8192) (q : Fin 1024)
    (hp : p.val = t.val / 16 * 512 + a.val) (hq : q.val = t.val / 8 % 2 * 512 + b.val) :
    (((cfg2.win 7).blk t).view.read (Elt F) G : Vec F S512x512 .f32) (ix2 a b) = G (ix2 p q) := by
  obtain ⟨-, -, -, -, -, -, -, -, -, -, -, -, -, -, e70, e71⟩ := idx_facts2 t
  show G (((cfg2.win 7).blk t).view.emb (ix2 a b)) = G (ix2 p q)
  refine congrArg G (funext fun ax => Fin.ext ?_)
  match ax with
  | ⟨0, _⟩ => show win2_7.index t (0 : Fin 2) * 512 + 1 * a.val = p.val; omega
  | ⟨1, _⟩ => show win2_7.index t (1 : Fin 2) * 512 + 1 * b.val = q.val; omega

end

end Cert.KernelIdeal.Layers

end
-- ==== Proof.FrameIdeal.L2Acc.lean ====
import proofs.«128668_j3307124817925_1_alg».proof.Proof.FrameIdeal.L2Pieces
import proofs.«128668_j3307124817925_1_alg».proof.Proof.FrameIdeal.L2Blocks
import proofs.«128668_j3307124817925_1_alg».proof.Proof.Payload
import proofs.«128668_j3307124817925_1_alg».proof.Proof.Algebra

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx Cert.BayesMlp

section
variable (V : (c : Dev nD) → (b : Ref sig .tc) → Buf (Elt Ideal) ((c : Thread nD τ).loc b))

def X2 (c : Dev nD) : Fin 8192 → Fin 4096 → EReal := fun p k => xarr2 V c (ix2 p k)

def A2 (c : Dev nD) : Fin 1024 → Fin 4096 → EReal :=
  weight (fun q k => mWarr2 V c (ix2 q k)) (fun q k => sWarr2 V c (ix2 q k)) (fun q k => zWarr2 V c (ix2 q k))

def B2 (c : Dev nD) : Fin 1024 → EReal :=
  bias (fun q => mbarr2 V c (ix2 0 q)) (fun q => sbarr2 V c (ix2 0 q)) (fun q => zbarr2 V c (ix2 0 q))

def term2 (c : Dev nD) (p : Fin 8192) (q : Fin 1024) (n : Nat) : EReal :=
  if h : n < 4096 then X2 V c p ⟨n, h⟩ * A2 V c q ⟨n, h⟩ else 0

-- The tile product at a point is one block of 512 of the contraction's terms.
theorem step2 (c : Dev nD) (t : Fin cfg2.N) (a b : Fin 512) (p : Fin 8192) (q : Fin 1024)
    (hp : p.val = t.val / 16 * 512 + a.val) (hq : q.val = t.val / 8 % 2 * 512 + b.val) :
    ∑ k : Fin 512, xblk2 V c t (ix2 a k) * (mWblk2 V c t (ix2 b k) + softplus (sWblk2 V c t (ix2 b k)) * zWblk2 V c t (ix2 b k))
      = ∑ k : Fin 512, term2 V c p q (t.val % 8 * 512 + k.val) := by
  refine Finset.sum_congr rfl fun k _ => ?_
  have hk : t.val % 8 * 512 + k.val < 4096 := by have := k.isLt; omega
  rw [term2, dif_pos hk,
    xblk2_apply V c t a k p ⟨t.val % 8 * 512 + k.val, hk⟩ hp rfl,
    mWblk2_apply V c t b k q ⟨t.val % 8 * 512 + k.val, hk⟩ hq rfl,
    sWblk2_apply V c t b k q ⟨t.val % 8 * 512 + k.val, hk⟩ hq rfl,
    zWblk2_apply V c t b k q ⟨t.val % 8 * 512 + k.val, hk⟩ hq rfl]
  rfl

theorem pay2_step2 (c : Dev nD) (t : Fin cfg2.N) (a b : Fin 512) (p : Fin 8192) (q : Fin 1024)
    (hp : p.val = t.val / 16 * 512 + a.val) (hq : q.val = t.val / 8 % 2 * 512 + b.val)
    (xs : Vec Ideal S512x512 .f32) (hxs : xs (ix2 a b) = blockSum (term2 V c p q) (t.val % 8)) :
    k2_pay2 (xblk2 V c t) (sWblk2 V c t) (mWblk2 V c t) (zWblk2 V c t) xs (ix2 a b)
      = blockSum (term2 V c p q) (t.val % 8 + 1) :=
  (Payload.k2_pay2_apply (xblk2 V c t) (sWblk2 V c t) (mWblk2 V c t) (zWblk2 V c t) xs a b).trans
    (congrArg₂ (· + ·) hxs (step2 V c t a b p q hp hq))

theorem acc2_A (c : Dev nD) (t : Fin cfg2.N) (h0 : t.val % 8 = 0) (h1 : ¬t.val % 8 = 7) (a b : Fin 512) (p : Fin 8192) (q : Fin 1024)
    (hp : p.val = t.val / 16 * 512 + a.val) (hq : q.val = t.val / 8 % 2 * 512 + b.val) :
    (outsAt2 V c t.val t.isLt).2 (ix2 a b) = blockSum (term2 V c p q) (t.val % 8 + 1) := by
  rw [outsAt2_A V c t h0 h1]
  dsimp only
  refine (congrFun (sout2_A_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) (ix2 a b)).trans ?_
  refine pay2_step2 V c t a b p q hp hq (k2_pay1 (F := Ideal)) ?_
  rw [h0]
  exact Payload.k2_pay1_apply _

theorem acc2_B (c : Dev nD) (t : Fin cfg2.N) (h0 : ¬t.val % 8 = 0) (h1 : ¬t.val % 8 = 7) (a b : Fin 512) (p : Fin 8192) (q : Fin 1024)
    (hp : p.val = t.val / 16 * 512 + a.val) (hq : q.val = t.val / 8 % 2 * 512 + b.val)
    (ih : (outsAt2 V c (t.val - 1) (Nat.lt_of_le_of_lt (Nat.sub_le _ _) t.isLt)).2 (ix2 a b) = blockSum (term2 V c p q) (t.val % 8)) :
    (outsAt2 V c t.val t.isLt).2 (ix2 a b) = blockSum (term2 V c p q) (t.val % 8 + 1) := by
  rw [outsAt2_B V c t h0 h1]
  dsimp only
  refine (congrFun (sout2_B_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) (ix2 a b)).trans ?_
  exact pay2_step2 V c t a b p q hp hq _ ih

theorem acc2_C (c : Dev nD) (t : Fin cfg2.N) (h0 : ¬t.val % 8 = 0) (h1 : t.val % 8 = 7) (a b : Fin 512) (p : Fin 8192) (q : Fin 1024)
    (hp : p.val = t.val / 16 * 512 + a.val) (hq : q.val = t.val / 8 % 2 * 512 + b.val)
    (ih : (outsAt2 V c (t.val - 1) (Nat.lt_of_le_of_lt (Nat.sub_le _ _) t.isLt)).2 (ix2 a b) = blockSum (term2 V c p q) (t.val % 8)) :
    (outsAt2 V c t.val t.isLt).2 (ix2 a b) = blockSum (term2 V c p q) (t.val % 8 + 1) := by
  rw [outsAt2_C V c t h0 h1]
  dsimp only
  refine (congrFun (sout2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) (ix2 a b)).trans ?_
  exact pay2_step2 V c t a b p q hp hq _ ih

-- By induction on the point: after block k the accumulator holds the sum of the first k + 1 blocks.
theorem acc2_eq (c : Dev nD) : ∀ (n : ℕ) (hn : n < cfg2.N) (a b : Fin 512) (p : Fin 8192) (q : Fin 1024),
    p.val = n / 16 * 512 + a.val → q.val = n / 8 % 2 * 512 + b.val →
    (outsAt2 V c n hn).2 (ix2 a b) = blockSum (term2 V c p q) (n % 8 + 1)
  | 0, hn, a, b, p, q, hp, hq => acc2_A V c ⟨0, hn⟩ rfl (by show ¬(0 % 8 = 7); decide) a b p q hp hq
  | n + 1, hn, a, b, p, q, hp, hq => by
    by_cases h0 : (n + 1) % 8 = 0
    · exact acc2_A V c ⟨n + 1, hn⟩ h0 (by show ¬((n + 1) % 8 = 7); omega) a b p q hp hq
    · have ih := acc2_eq c n (Nat.lt_of_succ_lt hn) a b p q (by omega) (by omega)
      rw [show n % 8 + 1 = (n + 1) % 8 from by omega] at ih
      by_cases h1 : (n + 1) % 8 = 7
      · exact acc2_C V c ⟨n + 1, hn⟩ h0 h1 a b p q hp hq ih
      · exact acc2_B V c ⟨n + 1, hn⟩ h0 h1 a b p q hp hq ih

-- So a stored entry is the dense layer's value there.
theorem out2_eq (c : Dev nD) (t : Fin cfg2.N) (h1 : t.val % 8 = 7) (a b : Fin 512) (p : Fin 8192) (q : Fin 1024)
    (hp : p.val = t.val / 16 * 512 + a.val) (hq : q.val = t.val / 8 % 2 * 512 + b.val) :
    (outsAt2 V c t.val t.isLt).1 (ix2 a b) = id (blockSum (term2 V c p q) 8 + B2 V c q) := by
  have h0 : ¬t.val % 8 = 0 := by omega
  have ih : (outsAt2 V c (t.val - 1) (Nat.lt_of_le_of_lt (Nat.sub_le _ _) t.isLt)).2 (ix2 a b) = blockSum (term2 V c p q) (t.val % 8) := by
    have := acc2_eq V c (t.val - 1) (Nat.lt_of_le_of_lt (Nat.sub_le _ _) t.isLt) a b p q (by omega) (by omega)
    rw [show (t.val - 1) % 8 + 1 = t.val % 8 from by omega] at this
    exact this
  rw [outsAt2_C V c t h0 h1]
  dsimp only
  refine (congrFun (out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) (ix2 a b)).trans ?_
  refine (Payload.k2_pay3_apply (sbblk2 V c t) (mbblk2 V c t) (zbblk2 V c t)
    (k2_pay2 (xblk2 V c t) (sWblk2 V c t) (mWblk2 V c t) (zWblk2 V c t) (outsAt2 V c (t.val - 1) (Nat.lt_of_le_of_lt (Nat.sub_le _ _) t.isLt)).2) a b).trans ?_
  rw [pay2_step2 V c t a b p q hp hq _ ih, h1,
    mbblk2_apply V c t 0 0 b q hq, sbblk2_apply V c t 0 0 b q hq, zbblk2_apply V c t 0 0 b q hq]
  rfl

end

end Cert.KernelIdeal.Layers

end
-- ==== Proof.FrameIdeal.L2Value.lean ====
import proofs.«128668_j3307124817925_1_alg».proof.Proof.FrameIdeal.L2Acc
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.ValueIdx Cert.BayesMlp
open Idealize.ShloMosaic.Pipeline (Dat)

section
variable (V : (c : Dev nD) → (b : Ref sig .tc) → Buf (Elt Ideal) ((c : Thread nD τ).loc b))

def G2 (c : Dev nD) : Vec Ideal S8192x1024 .f32 := fun i => dense id (X2 V c) (A2 V c) (B2 V c) (i 0) (i 1)

-- All 8 blocks together are the whole contraction.
theorem blockSum_term2 (c : Dev nD) (p : Fin 8192) (q : Fin 1024) :
    blockSum (term2 V c p q) 8 = ∑ k : Fin 4096, X2 V c p k * A2 V c q k := by
  rw [blockSum_eq]
  show ∑ k : Fin 4096, term2 V c p q k.val = _
  refine Finset.sum_congr rfl fun k _ => ?_
  rw [term2, dif_pos k.isLt]

theorem flushed2_eq (c : Dev nD) (t : Fin cfg2.N) (hf : (cfg2.win 7).flush t = true) :
    (dat2 V c).flushed 7 t = ((cfg2.win 7).blk t).view.read (Elt Ideal) (G2 V c) := by
  have h1 : t.val % 8 = 7 := (flush2_7 t).mp hf
  have hN : cfg2.N = 256 := N_2
  have ht : t.val < cfg2.N := t.isLt
  show (cfg2.win 7).cut (grid2.coords t) ((dat2 V c).after 7 t) = _
  rw [after2_7]
  funext y
  obtain ⟨a, b, rfl⟩ : ∃ (a b : Fin 512), y = ix2 a b := ⟨y 0, y 1, eq_ix2 y⟩
  have hp : t.val / 16 * 512 + a.val < 8192 := by have := a.isLt; omega
  have hq : t.val / 8 % 2 * 512 + b.val < 1024 := by have := b.isLt; omega
  refine (out2_eq V c t h1 a b ⟨t.val / 16 * 512 + a.val, hp⟩ ⟨t.val / 8 % 2 * 512 + b.val, hq⟩ rfl rfl).trans ?_
  refine Eq.trans ?_ (oblk2_read_apply (G2 V c) t a b ⟨t.val / 16 * 512 + a.val, hp⟩ ⟨t.val / 8 % 2 * 512 + b.val, hq⟩ rfl rfl).symm
  rw [blockSum_term2]
  rfl

theorem mem_oblk2 (t : Fin cfg2.N) (i : S8192x1024.Idx) :
    i ∈ ((cfg2.win 7).blk t).view.set ↔ ∀ a : Fin 2, win2_7.index t a * S512x512.size a ≤ (i a).val ∧ (i a).val < win2_7.index t a * S512x512.size a + S512x512.size a := by
  show i ∈ ((View.whole main_v11).slice (win2_7.rect t)).set ↔ _
  rw [View.set_slice_whole, Rect.mem_set_unit]
  exact Iff.rfl

-- The stored tiles cover the output array.
theorem cover2 (i : S8192x1024.Idx) :
    ∃ t : Fin cfg2.N, (cfg2.win 7).flush t = true ∧ i ∈ ((cfg2.win 7).blk t).view.set := by
  have hN : cfg2.N = 256 := N_2
  have hi0 : (i 0).val < 8192 := (i 0).isLt
  have hi1 : (i 1).val < 1024 := (i 1).isLt
  have htN : ((i 0).val / 512 * 2 + (i 1).val / 512) * 8 + 7 < cfg2.N := by omega
  refine ⟨⟨((i 0).val / 512 * 2 + (i 1).val / 512) * 8 + 7, htN⟩, (flush2_7 _).mpr (by show (((i 0).val / 512 * 2 + (i 1).val / 512) * 8 + 7) % 8 = 7; omega), ?_⟩
  rw [mem_oblk2]
  obtain ⟨-, -, -, -, -, -, -, -, -, -, -, -, -, -, e70, e71⟩ := idx_facts2 ⟨((i 0).val / 512 * 2 + (i 1).val / 512) * 8 + 7, htN⟩
  have e70' : win2_7.index ⟨((i 0).val / 512 * 2 + (i 1).val / 512) * 8 + 7, htN⟩ (0 : Fin 2) = (((i 0).val / 512 * 2 + (i 1).val / 512) * 8 + 7) / 16 := e70
  have e71' : win2_7.index ⟨((i 0).val / 512 * 2 + (i 1).val / 512) * 8 + 7, htN⟩ (1 : Fin 2) = (((i 0).val / 512 * 2 + (i 1).val / 512) * 8 + 7) / 8 % 2 := e71
  intro a
  match a with
  | ⟨0, _⟩ => show win2_7.index _ (0 : Fin 2) * 512 ≤ (i 0).val ∧ (i 0).val < win2_7.index _ (0 : Fin 2) * 512 + 512; omega
  | ⟨1, _⟩ => show win2_7.index _ (1 : Fin 2) * 512 ≤ (i 1).val ∧ (i 1).val < win2_7.index _ (1 : Fin 2) * 512 + 512; omega

theorem arrAt2_eq (c : Dev nD) : (dat2 V c).arrAt 7 cfg2.N = G2 V c :=
  (dat2 V c).arrAt_eq_of_cover 7 (G2 V c) (flushed2_eq V c) (cover2)

-- The region leaves the dense layer of the arrays it finds.
theorem final2 (c : Dev nD) (p : Fin 8192) (q : Fin 1024) :
    ((dat2 V c).arrAt 7 cfg2.N : S8192x1024.Idx → EReal) (ix2 p q)
      = dense id
          (fun p k => (V c main_v7 : S8192x4096.Idx → EReal) (ix2 p k))
          (weight (fun q k => (V c main_arg13 : S1024x4096.Idx → EReal) (ix2 q k)) (fun q k => (V c main_arg14 : S1024x4096.Idx → EReal) (ix2 q k)) (fun q k => (V c main_arg15 : S1024x4096.Idx → EReal) (ix2 q k)))
          (bias (fun q => (V c main_v8 : S1x1024.Idx → EReal) (ix2 0 q)) (fun q => (V c main_v9 : S1x1024.Idx → EReal) (ix2 0 q)) (fun q => (V c main_v10 : S1x1024.Idx → EReal) (ix2 0 q))) p q := by
  rw [arrAt2_eq V c]
  rfl

end

end Cert.KernelIdeal.Layers

end
-- ==== Proof.FrameIdeal.BridgeHost.lean ====
import proofs.«128668_j3307124817925_1_alg».proof.Proof.Gen.KernelIdeal.Launch
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Layers

open Cert.KernelIdeal Cert.KernelIdeal.Gen
open Idealize.ShloMosaic Idealize.ShloMosaic.TcCoe Idealize.ShloMosaic.ValueIdx

variable (W : Valuation τ sig (Elt Ideal))

theorem host0_writes : (hostOps0 : List (HloOp τ sig (Elt Ideal))).Forall fun op =>
    op.writes ⊆ (([main_v0, main_v1, main_v2] : List (Ref sig .tc)).map (Proc.devRef (τ := τ) .tc)).toFinset := by
  simp only [List.Forall, StableHlo.reshape_writes, Finset.singleton_subset_iff, List.mem_toFinset]
  exact ⟨List.mem_map_of_mem (by decide), List.mem_map_of_mem (by decide), List.mem_map_of_mem (by decide)⟩

theorem host1_writes : (hostOps1 : List (HloOp τ sig (Elt Ideal))).Forall fun op =>
    op.writes ⊆ (([main_v4, main_v5, main_v6] : List (Ref sig .tc)).map (Proc.devRef (τ := τ) .tc)).toFinset := by
  simp only [List.Forall, StableHlo.reshape_writes, Finset.singleton_subset_iff, List.mem_toFinset]
  exact ⟨List.mem_map_of_mem (by decide), List.mem_map_of_mem (by decide), List.mem_map_of_mem (by decide)⟩

theorem host2_writes : (hostOps2 : List (HloOp τ sig (Elt Ideal))).Forall fun op =>
    op.writes ⊆ (([main_v8, main_v9, main_v10] : List (Ref sig .tc)).map (Proc.devRef (τ := τ) .tc)).toFinset := by
  simp only [List.Forall, StableHlo.reshape_writes, Finset.singleton_subset_iff, List.mem_toFinset]
  exact ⟨List.mem_map_of_mem (by decide), List.mem_map_of_mem (by decide), List.mem_map_of_mem (by decide)⟩

theorem host0_keep (r : Ref sig .tc) (hr : r ∉ ([main_v0, main_v1, main_v2] : List (Ref sig .tc))) :
    StableHlo.after hostOps0 W (Proc.devRef .tc r) = W (Proc.devRef .tc r) :=
  StableHlo.after_of_writes_sub hostOps0 W host0_writes hr

theorem host1_keep (r : Ref sig .tc) (hr : r ∉ ([main_v4, main_v5, main_v6] : List (Ref sig .tc))) :
    StableHlo.after hostOps1 W (Proc.devRef .tc r) = W (Proc.devRef .tc r) :=
  StableHlo.after_of_writes_sub hostOps1 W host1_writes hr

theorem host2_keep (r : Ref sig .tc) (hr : r ∉ ([main_v8, main_v9, main_v10] : List (Ref sig .tc))) :
    StableHlo.after hostOps2 W (Proc.devRef .tc r) = W (Proc.devRef .tc r) :=
  StableHlo.after_of_writes_sub hostOps2 W host2_writes hr

-- A host stretch lays a bias vector out as a row and changes nothing else.
theorem host0_v0 (q : Fin 4096) :
    (StableHlo.after hostOps0 W (Proc.devRef .tc main_v0) : S1x4096.Idx → EReal) (ix2 0 q)
      = (W (Proc.devRef .tc main_arg4) : S4096.Idx → EReal) (ix1 q) := by
  have e : (StableHlo.after hostOps0 W (Proc.devRef .tc main_v0) : S1x4096.Idx → EReal)
      = shapeCast S1x4096 (W (Proc.devRef .tc main_arg4) : S4096.Idx → EReal) shapeCasts_S4096_S1x4096 := by
    after_results; rfl
  rw [e]; exact shapeCast_a_1a_apply _ _ 0 q

theorem host0_v1 (q : Fin 4096) :
    (StableHlo.after hostOps0 W (Proc.devRef .tc main_v1) : S1x4096.Idx → EReal) (ix2 0 q)
      = (W (Proc.devRef .tc main_arg5) : S4096.Idx → EReal) (ix1 q) := by
  have e : (StableHlo.after hostOps0 W (Proc.devRef .tc main_v1) : S1x4096.Idx → EReal)
      = shapeCast S1x4096 (W (Proc.devRef .tc main_arg5) : S4096.Idx → EReal) shapeCasts_S4096_S1x4096 := by
    after_results; rfl
  rw [e]; exact shapeCast_a_1a_apply _ _ 0 q

theorem host0_v2 (q : Fin 4096) :
    (StableHlo.after hostOps0 W (Proc.devRef .tc main_v2) : S1x4096.Idx → EReal) (ix2 0 q)
      = (W (Proc.devRef .tc main_arg6) : S4096.Idx → EReal) (ix1 q) := by
  have e : (StableHlo.after hostOps0 W (Proc.devRef .tc main_v2) : S1x4096.Idx → EReal)
      = shapeCast S1x4096 (W (Proc.devRef .tc main_arg6) : S4096.Idx → EReal) shapeCasts_S4096_S1x4096 := by
    after_results; rfl
  rw [e]; exact shapeCast_a_1a_apply _ _ 0 q

theorem host1_v4 (q : Fin 4096) :
    (StableHlo.after hostOps1 W (Proc.devRef .tc main_v4) : S1x4096.Idx → EReal) (ix2 0 q)
      = (W (Proc.devRef .tc main_arg10) : S4096.Idx → EReal) (ix1 q) := by
  have e : (StableHlo.after hostOps1 W (Proc.devRef .tc main_v4) : S1x4096.Idx → EReal)
      = shapeCast S1x4096 (W (Proc.devRef .tc main_arg10) : S4096.Idx → EReal) shapeCasts_S4096_S1x4096 := by
    after_results; rfl
  rw [e]; exact shapeCast_a_1a_apply _ _ 0 q

theorem host1_v5 (q : Fin 4096) :
    (StableHlo.after hostOps1 W (Proc.devRef .tc main_v5) : S1x4096.Idx → EReal) (ix2 0 q)
      = (W (Proc.devRef .tc main_arg11) : S4096.Idx → EReal) (ix1 q) := by
  have e : (StableHlo.after hostOps1 W (Proc.devRef .tc main_v5) : S1x4096.Idx → EReal)
      = shapeCast S1x4096 (W (Proc.devRef .tc main_arg11) : S4096.Idx → EReal) shapeCasts_S4096_S1x4096 := by
    after_results; rfl
  rw [e]; exact shapeCast_a_1a_apply _ _ 0 q

theorem host1_v6 (q : Fin 4096) :
    (StableHlo.after hostOps1 W (Proc.devRef .tc main_v6) : S1x4096.Idx → EReal) (ix2 0 q)
      = (W (Proc.devRef .tc main_arg12) : S4096.Idx → EReal) (ix1 q) := by
  have e : (StableHlo.after hostOps1 W (Proc.devRef .tc main_v6) : S1x4096.Idx → EReal)
      = shapeCast S1x4096 (W (Proc.devRef .tc main_arg12) : S4096.Idx → EReal) shapeCasts_S4096_S1x4096 := by
    after_results; rfl
  rw [e]; exact shapeCast_a_1a_apply _ _ 0 q

theorem host2_v8 (q : Fin 1024) :
    (StableHlo.after hostOps2 W (Proc.devRef .tc main_v8) : S1x1024.Idx → EReal) (ix2 0 q)
      = (W (Proc.devRef .tc main_arg16) : S1024.Idx → EReal) (ix1 q) := by
  have e : (StableHlo.after hostOps2 W (Proc.devRef .tc main_v8) : S1x1024.Idx → EReal)
      = shapeCast S1x1024 (W (Proc.devRef .tc main_arg16) : S1024.Idx → EReal) shapeCasts_S1024_S1x1024 := by
    after_results; rfl
  rw [e]; exact shapeCast_a_1a_apply _ _ 0 q

theorem host2_v9 (q : Fin 1024) :
    (StableHlo.after hostOps2 W (Proc.devRef .tc main_v9) : S1x1024.Idx → EReal) (ix2 0 q)
      = (W (Proc.devRef .tc main_arg17) : S1024.Idx → EReal) (ix1 q) := by
  have e : (StableHlo.after hostOps2 W (Proc.devRef .tc main_v9) : S1x1024.Idx → EReal)
      = shapeCast S1x1024 (W (Proc.devRef .tc main_arg17) : S1024.Idx → EReal) shapeCasts_S1024_S1x1024 := by
    after_results; rfl
  rw [e]; exact shapeCast_a_1a_apply _ _ 0 q

theorem host2_v10 (q : Fin 1024) :
    (StableHlo.after hostOps2 W (Proc.devRef .tc main_v10) : S1x1024.Idx → EReal) (ix2 0 q)
      = (W (Proc.devRef .tc main_arg18) : S1024.Idx → EReal) (ix1 q) := by
  have e : (StableHlo.after hostOps2 W (Proc.devRef .tc main_v10) : S1x1024.Idx → EReal)
      = shapeCast S1x1024 (W (Proc.devRef .tc main_arg18) : S1024.Idx → EReal) shapeCasts_S1024_S1x1024 := by
    after_results; rfl
  rw [e]; exact shapeCast_a_1a_apply _ _ 0 q

end Cert.KernelIdeal.Layers

end
-- ==== Proof.FrameIdeal.Bridge.lean ====
import proofs.«128668_j3307124817925_1_alg».proof.Proof.FrameIdeal.Assemble
import proofs.«128668_j3307124817925_1_alg».proof.Proof.FrameIdeal.BridgeHost
import proofs.«128668_j3307124817925_1_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Layers

open Cert.KernelIdeal Cert.KernelIdeal.Gen
open Idealize.ShloMosaic Idealize.ShloMosaic.TcCoe Idealize.ShloMosaic.ValueIdx
open Cert.BayesMlp

abbrev Layer0Value : Prop :=
  ∀ (V : (c : Dev nD) → (b : Ref sig .tc) → Buf (Elt Ideal) ((c : Thread nD τ).loc b)) (c : Dev nD)
    (p : Fin 8192) (q : Fin 4096),
    ((dat0 V c).arrAt 7 cfg0.N : S8192x4096.Idx → EReal) (ix2 p q)
      = dense relu (fun p k => (V c main_arg0 : S8192x1024.Idx → EReal) (ix2 p k))
          (weight (fun q k => (V c main_arg1 : S4096x1024.Idx → EReal) (ix2 q k))
            (fun q k => (V c main_arg2 : S4096x1024.Idx → EReal) (ix2 q k))
            (fun q k => (V c main_arg3 : S4096x1024.Idx → EReal) (ix2 q k)))
          (bias (fun q => (V c main_v0 : S1x4096.Idx → EReal) (ix2 0 q))
            (fun q => (V c main_v1 : S1x4096.Idx → EReal) (ix2 0 q))
            (fun q => (V c main_v2 : S1x4096.Idx → EReal) (ix2 0 q))) p q

abbrev Layer1Value : Prop :=
  ∀ (V : (c : Dev nD) → (b : Ref sig .tc) → Buf (Elt Ideal) ((c : Thread nD τ).loc b)) (c : Dev nD)
    (p : Fin 8192) (q : Fin 4096),
    ((dat1 V c).arrAt 7 cfg1.N : S8192x4096.Idx → EReal) (ix2 p q)
      = dense relu (fun p k => (V c main_v3 : S8192x4096.Idx → EReal) (ix2 p k))
          (weight (fun q k => (V c main_arg7 : S4096x4096.Idx → EReal) (ix2 q k))
            (fun q k => (V c main_arg8 : S4096x4096.Idx → EReal) (ix2 q k))
            (fun q k => (V c main_arg9 : S4096x4096.Idx → EReal) (ix2 q k)))
          (bias (fun q => (V c main_v4 : S1x4096.Idx → EReal) (ix2 0 q))
            (fun q => (V c main_v5 : S1x4096.Idx → EReal) (ix2 0 q))
            (fun q => (V c main_v6 : S1x4096.Idx → EReal) (ix2 0 q))) p q

abbrev Layer2Value : Prop :=
  ∀ (V : (c : Dev nD) → (b : Ref sig .tc) → Buf (Elt Ideal) ((c : Thread nD τ).loc b)) (c : Dev nD)
    (p : Fin 8192) (q : Fin 1024),
    ((dat2 V c).arrAt 7 cfg2.N : S8192x1024.Idx → EReal) (ix2 p q)
      = dense id (fun p k => (V c main_v7 : S8192x4096.Idx → EReal) (ix2 p k))
          (weight (fun q k => (V c main_arg13 : S1024x4096.Idx → EReal) (ix2 q k))
            (fun q k => (V c main_arg14 : S1024x4096.Idx → EReal) (ix2 q k))
            (fun q k => (V c main_arg15 : S1024x4096.Idx → EReal) (ix2 q k)))
          (bias (fun q => (V c main_v8 : S1x1024.Idx → EReal) (ix2 0 q))
            (fun q => (V c main_v9 : S1x1024.Idx → EReal) (ix2 0 q))
            (fun q => (V c main_v10 : S1x1024.Idx → EReal) (ix2 0 q))) p q

section Layers

variable (m : (ℓ : Loc nD τ sig) → Buf (Elt Ideal) ℓ) (c : Dev nD)

abbrev hidden1 : Fin 8192 → Fin 4096 → EReal :=
  dense relu (fun p k => (m ((c : Thread nD τ).loc main_arg0) : S8192x1024.Idx → EReal) (ix2 p k))
    (weight (fun q k => (m ((c : Thread nD τ).loc main_arg1) : S4096x1024.Idx → EReal) (ix2 q k))
      (fun q k => (m ((c : Thread nD τ).loc main_arg2) : S4096x1024.Idx → EReal) (ix2 q k))
      (fun q k => (m ((c : Thread nD τ).loc main_arg3) : S4096x1024.Idx → EReal) (ix2 q k)))
    (bias (fun q => (m ((c : Thread nD τ).loc main_arg4) : S4096.Idx → EReal) (ix1 q))
      (fun q => (m ((c : Thread nD τ).loc main_arg5) : S4096.Idx → EReal) (ix1 q))
      (fun q => (m ((c : Thread nD τ).loc main_arg6) : S4096.Idx → EReal) (ix1 q)))

abbrev hidden2 : Fin 8192 → Fin 4096 → EReal :=
  dense relu (hidden1 m c)
    (weight (fun q k => (m ((c : Thread nD τ).loc main_arg7) : S4096x4096.Idx → EReal) (ix2 q k))
      (fun q k => (m ((c : Thread nD τ).loc main_arg8) : S4096x4096.Idx → EReal) (ix2 q k))
      (fun q k => (m ((c : Thread nD τ).loc main_arg9) : S4096x4096.Idx → EReal) (ix2 q k)))
    (bias (fun q => (m ((c : Thread nD τ).loc main_arg10) : S4096.Idx → EReal) (ix1 q))
      (fun q => (m ((c : Thread nD τ).loc main_arg11) : S4096.Idx → EReal) (ix1 q))
      (fun q => (m ((c : Thread nD τ).loc main_arg12) : S4096.Idx → EReal) (ix1 q)))

theorem W2_launch (r : Ref sig .tc) (h0 : r ∉ ([main_v0, main_v1, main_v2] : List (Ref sig .tc)))
    (hs0 : ∀ w, Pipeline.arrRef spec0 w ≠ r) :
    W2 m c (Proc.devRef .tc r) = m ((c : Thread nD τ).loc r) :=
  (W2_of_ne m c r hs0).trans (host0_keep (W0 m c) r h0)

theorem W4_launch (r : Ref sig .tc) (h0 : r ∉ ([main_v0, main_v1, main_v2] : List (Ref sig .tc)))
    (hs0 : ∀ w, Pipeline.arrRef spec0 w ≠ r) (h1 : r ∉ ([main_v4, main_v5, main_v6] : List (Ref sig .tc)))
    (hs1 : ∀ w, Pipeline.arrRef spec1 w ≠ r) :
    W4 m c (Proc.devRef .tc r) = m ((c : Thread nD τ).loc r) :=
  (W4_of_ne m c r hs1).trans ((host1_keep (W2 m c) r h1).trans (W2_launch m c r h0 hs0))

theorem layer0_value (hf0 : Layer0Value) (p : Fin 8192) (q : Fin 4096) :
    (W2 m c (Proc.devRef .tc main_v3) : S8192x4096.Idx → EReal) (ix2 p q) = hidden1 m c p q := by
  refine (congrFun (W2_arr m c 7) (ix2 p q)).trans ((hf0 (V1 m) c p q).trans ?_)
  have a0 : (V1 m c main_arg0 : S8192x1024.Idx → EReal) = m ((c : Thread nD τ).loc main_arg0) :=
    host0_keep (W0 m c) main_arg0 (by decide)
  have a1 : (V1 m c main_arg1 : S4096x1024.Idx → EReal) = m ((c : Thread nD τ).loc main_arg1) :=
    host0_keep (W0 m c) main_arg1 (by decide)
  have a2 : (V1 m c main_arg2 : S4096x1024.Idx → EReal) = m ((c : Thread nD τ).loc main_arg2) :=
    host0_keep (W0 m c) main_arg2 (by decide)
  have a3 : (V1 m c main_arg3 : S4096x1024.Idx → EReal) = m ((c : Thread nD τ).loc main_arg3) :=
    host0_keep (W0 m c) main_arg3 (by decide)
  have r0 : (fun q => (V1 m c main_v0 : S1x4096.Idx → EReal) (ix2 0 q))
      = fun q => (m ((c : Thread nD τ).loc main_arg4) : S4096.Idx → EReal) (ix1 q) :=
    funext fun q => host0_v0 (W0 m c) q
  have r1 : (fun q => (V1 m c main_v1 : S1x4096.Idx → EReal) (ix2 0 q))
      = fun q => (m ((c : Thread nD τ).loc main_arg5) : S4096.Idx → EReal) (ix1 q) :=
    funext fun q => host0_v1 (W0 m c) q
  have r2 : (fun q => (V1 m c main_v2 : S1x4096.Idx → EReal) (ix2 0 q))
      = fun q => (m ((c : Thread nD τ).loc main_arg6) : S4096.Idx → EReal) (ix1 q) :=
    funext fun q => host0_v2 (W0 m c) q
  rw [a0, a1, a2, a3, r0, r1, r2]

theorem layer1_value (hf0 : Layer0Value) (hf1 : Layer1Value) (p : Fin 8192) (q : Fin 4096) :
    (W4 m c (Proc.devRef .tc main_v7) : S8192x4096.Idx → EReal) (ix2 p q) = hidden2 m c p q := by
  refine (congrFun (W4_arr m c 7) (ix2 p q)).trans ((hf1 (V3 m) c p q).trans ?_)
  have x : (fun p k => (V3 m c main_v3 : S8192x4096.Idx → EReal) (ix2 p k)) = hidden1 m c :=
    funext fun p => funext fun k =>
      (congrFun (host1_keep (W2 m c) main_v3 (by decide)) (ix2 p k)).trans (layer0_value m c hf0 p k)
  have a7 : (V3 m c main_arg7 : S4096x4096.Idx → EReal) = m ((c : Thread nD τ).loc main_arg7) :=
    (host1_keep (W2 m c) main_arg7 (by decide)).trans (W2_launch m c main_arg7 (by decide) (by decide))
  have a8 : (V3 m c main_arg8 : S4096x4096.Idx → EReal) = m ((c : Thread nD τ).loc main_arg8) :=
    (host1_keep (W2 m c) main_arg8 (by decide)).trans (W2_launch m c main_arg8 (by decide) (by decide))
  have a9 : (V3 m c main_arg9 : S4096x4096.Idx → EReal) = m ((c : Thread nD τ).loc main_arg9) :=
    (host1_keep (W2 m c) main_arg9 (by decide)).trans (W2_launch m c main_arg9 (by decide) (by decide))
  have r4 : (fun q => (V3 m c main_v4 : S1x4096.Idx → EReal) (ix2 0 q))
      = fun q => (m ((c : Thread nD τ).loc main_arg10) : S4096.Idx → EReal) (ix1 q) :=
    funext fun q => (host1_v4 (W2 m c) q).trans
      (congrFun (W2_launch m c main_arg10 (by decide) (by decide)) (ix1 q))
  have r5 : (fun q => (V3 m c main_v5 : S1x4096.Idx → EReal) (ix2 0 q))
      = fun q => (m ((c : Thread nD τ).loc main_arg11) : S4096.Idx → EReal) (ix1 q) :=
    funext fun q => (host1_v5 (W2 m c) q).trans
      (congrFun (W2_launch m c main_arg11 (by decide) (by decide)) (ix1 q))
  have r6 : (fun q => (V3 m c main_v6 : S1x4096.Idx → EReal) (ix2 0 q))
      = fun q => (m ((c : Thread nD τ).loc main_arg12) : S4096.Idx → EReal) (ix1 q) :=
    funext fun q => (host1_v6 (W2 m c) q).trans
      (congrFun (W2_launch m c main_arg12 (by decide) (by decide)) (ix1 q))
  rw [x, a7, a8, a9, r4, r5, r6]

end Layers

-- Each region finds the previous one's output, so the three dense layers compose to the network of the launch arrays.
theorem result_value (hf0 : Layer0Value) (hf1 : Layer1Value) (hf2 : Layer2Value)
    (m : (ℓ : Loc nD τ sig) → Buf (Elt Ideal) ℓ) (c : Dev nD) (i : S8192x1024.Idx) :
    (W6 m c (Proc.devRef .tc main_v11) : S8192x1024.Idx → EReal) i
      = mlp (fun p k => (m ((c : Thread nD τ).loc main_arg0) : S8192x1024.Idx → EReal) (ix2 p k))
          (fun q k => (m ((c : Thread nD τ).loc main_arg1) : S4096x1024.Idx → EReal) (ix2 q k))
          (fun q k => (m ((c : Thread nD τ).loc main_arg2) : S4096x1024.Idx → EReal) (ix2 q k))
          (fun q k => (m ((c : Thread nD τ).loc main_arg3) : S4096x1024.Idx → EReal) (ix2 q k))
          (fun q => (m ((c : Thread nD τ).loc main_arg4) : S4096.Idx → EReal) (ix1 q))
          (fun q => (m ((c : Thread nD τ).loc main_arg5) : S4096.Idx → EReal) (ix1 q))
          (fun q => (m ((c : Thread nD τ).loc main_arg6) : S4096.Idx → EReal) (ix1 q))
          (fun q k => (m ((c : Thread nD τ).loc main_arg7) : S4096x4096.Idx → EReal) (ix2 q k))
          (fun q k => (m ((c : Thread nD τ).loc main_arg8) : S4096x4096.Idx → EReal) (ix2 q k))
          (fun q k => (m ((c : Thread nD τ).loc main_arg9) : S4096x4096.Idx → EReal) (ix2 q k))
          (fun q => (m ((c : Thread nD τ).loc main_arg10) : S4096.Idx → EReal) (ix1 q))
          (fun q => (m ((c : Thread nD τ).loc main_arg11) : S4096.Idx → EReal) (ix1 q))
          (fun q => (m ((c : Thread nD τ).loc main_arg12) : S4096.Idx → EReal) (ix1 q))
          (fun q k => (m ((c : Thread nD τ).loc main_arg13) : S1024x4096.Idx → EReal) (ix2 q k))
          (fun q k => (m ((c : Thread nD τ).loc main_arg14) : S1024x4096.Idx → EReal) (ix2 q k))
          (fun q k => (m ((c : Thread nD τ).loc main_arg15) : S1024x4096.Idx → EReal) (ix2 q k))
          (fun q => (m ((c : Thread nD τ).loc main_arg16) : S1024.Idx → EReal) (ix1 q))
          (fun q => (m ((c : Thread nD τ).loc main_arg17) : S1024.Idx → EReal) (ix1 q))
          (fun q => (m ((c : Thread nD τ).loc main_arg18) : S1024.Idx → EReal) (ix1 q)) (i 0) (i 1) := by
  obtain ⟨p, q, rfl⟩ : ∃ (p : Fin 8192) (q : Fin 1024), i = ix2 p q := ⟨i 0, i 1, eq_ix2 i⟩
  refine (congrFun (W6_arr m c 7) (ix2 p q)).trans ((hf2 (V5 m) c p q).trans ?_)
  have x : (fun p k => (V5 m c main_v7 : S8192x4096.Idx → EReal) (ix2 p k)) = hidden2 m c :=
    funext fun p => funext fun k =>
      (congrFun (host2_keep (W4 m c) main_v7 (by decide)) (ix2 p k)).trans (layer1_value m c hf0 hf1 p k)
  have a13 : (V5 m c main_arg13 : S1024x4096.Idx → EReal) = m ((c : Thread nD τ).loc main_arg13) :=
    (host2_keep (W4 m c) main_arg13 (by decide)).trans
      (W4_launch m c main_arg13 (by decide) (by decide) (by decide) (by decide))
  have a14 : (V5 m c main_arg14 : S1024x4096.Idx → EReal) = m ((c : Thread nD τ).loc main_arg14) :=
    (host2_keep (W4 m c) main_arg14 (by decide)).trans
      (W4_launch m c main_arg14 (by decide) (by decide) (by decide) (by decide))
  have a15 : (V5 m c main_arg15 : S1024x4096.Idx → EReal) = m ((c : Thread nD τ).loc main_arg15) :=
    (host2_keep (W4 m c) main_arg15 (by decide)).trans
      (W4_launch m c main_arg15 (by decide) (by decide) (by decide) (by decide))
  have r8 : (fun q => (V5 m c main_v8 : S1x1024.Idx → EReal) (ix2 0 q))
      = fun q => (m ((c : Thread nD τ).loc main_arg16) : S1024.Idx → EReal) (ix1 q) :=
    funext fun q => (host2_v8 (W4 m c) q).trans
      (congrFun (W4_launch m c main_arg16 (by decide) (by decide) (by decide) (by decide)) (ix1 q))
  have r9 : (fun q => (V5 m c main_v9 : S1x1024.Idx → EReal) (ix2 0 q))
      = fun q => (m ((c : Thread nD τ).loc main_arg17) : S1024.Idx → EReal) (ix1 q) :=
    funext fun q => (host2_v9 (W4 m c) q).trans
      (congrFun (W4_launch m c main_arg17 (by decide) (by decide) (by decide) (by decide)) (ix1 q))
  have r10 : (fun q => (V5 m c main_v10 : S1x1024.Idx → EReal) (ix2 0 q))
      = fun q => (m ((c : Thread nD τ).loc main_arg18) : S1024.Idx → EReal) (ix1 q) :=
    funext fun q => (host2_v10 (W4 m c) q).trans
      (congrFun (W4_launch m c main_arg18 (by decide) (by decide) (by decide) (by decide)) (ix1 q))
  rw [x, a13, a14, a15, r8, r9, r10]
  rfl

end Cert.KernelIdeal.Layers

end
-- ==== Proof.RefLayer.lean ====
import proofs.«128668_j3307124817925_1_alg».proof.Proof.Gen.ReferenceIdeal.Run
import proofs.«128668_j3307124817925_1_alg».proof.Proof.Gen.ReferenceIdeal.Read
import proofs.«128668_j3307124817925_1_alg».proof.Proof.Spec

noncomputable section

namespace Cert.ReferenceIdeal.RefValue

open Idealize.ShloMosaic Idealize.ShloMosaic.ValueIdx Cert.ReferenceIdeal Cert.ReferenceIdeal.Gen Cert.ReferenceIdeal.Read
open Cert.BayesMlp

abbrev mat {m n : Nat} (x : (⟨⟨2, ![m, n]⟩, .f32⟩ : BufTy).Contents (Elt Ideal)) : Fin m → Fin n → EReal :=
  fun p k => x (ix2 p k)

abbrev vec {n : Nat} (x : (⟨⟨1, ![n]⟩, .f32⟩ : BufTy).Contents (Elt Ideal)) : Fin n → EReal :=
  fun q => x (ix1 q)

-- The reference's softplus at an entry is the specification's.
theorem softplus_elt (s : Ideal .f32) :
    Scalar.select
        (FloatOps.cmpf .une (FloatOps.subf s (FloatOps.ofBits .f32 0x00000000#32))
          (FloatOps.subf s (FloatOps.ofBits .f32 0x00000000#32)))
        (FloatOps.addf s (FloatOps.ofBits .f32 0x00000000#32))
        (FloatOps.addf (FloatOps.maximumf s (FloatOps.ofBits .f32 0x00000000#32))
          (FloatOps.hostUnary .log1p (FloatOps.hostUnary .exp (FloatOps.hostNegf (FloatOps.hostAbsf
            (FloatOps.subf s (FloatOps.ofBits .f32 0x00000000#32)))))))
      = softplus s := by
  have hc : Ideal.cmp .une s s = 0#1 := by simp [Ideal.cmp]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, Ideal.cmpf_def, sub_zero, hc, select_zero]
  rfl

theorem sp_w0 (x2 : (⟨S4096x1024, .f32⟩ : BufTy).Contents (Elt Ideal)) (i : S4096x1024.Idx) :
    val_main_v0 (F := Ideal) x2 i = softplus (x2 i) := by
  simp only [val_main_v0_apply, val_main_call0_v4_apply, val_main_call0_v3_apply, val_main_call0_v2_apply,
    val_main_call0_v6_apply, val_main_call0_v5_apply, val_main_call0_v11_apply, val_main_call0_v1_apply,
    val_main_call0_v0_apply, val_main_call0_v10_apply, val_main_call0_v9_apply, val_main_call0_v8_apply,
    val_main_call0_v7_apply, val_main_call0_cst_apply]
  exact softplus_elt _

theorem sp_b0 (x5 : (⟨S4096, .f32⟩ : BufTy).Contents (Elt Ideal)) (i : S4096.Idx) :
    val_main_v3 (F := Ideal) x5 i = softplus (x5 i) := by
  simp only [val_main_v3_apply, val_main_call1_v4_apply, val_main_call1_v3_apply, val_main_call1_v2_apply,
    val_main_call1_v6_apply, val_main_call1_v5_apply, val_main_call1_v11_apply, val_main_call1_v1_apply,
    val_main_call1_v0_apply, val_main_call1_v10_apply, val_main_call1_v9_apply, val_main_call1_v8_apply,
    val_main_call1_v7_apply, val_main_call1_cst_apply]
  exact softplus_elt _

theorem sp_w1 (x8 : (⟨S4096x4096, .f32⟩ : BufTy).Contents (Elt Ideal)) (i : S4096x4096.Idx) :
    val_main_v12 (F := Ideal) x8 i = softplus (x8 i) := by
  simp only [val_main_v12_apply, val_main_call3_v4_apply, val_main_call3_v3_apply, val_main_call3_v2_apply,
    val_main_call3_v6_apply, val_main_call3_v5_apply, val_main_call3_v11_apply, val_main_call3_v1_apply,
    val_main_call3_v0_apply, val_main_call3_v10_apply, val_main_call3_v9_apply, val_main_call3_v8_apply,
    val_main_call3_v7_apply, val_main_call3_cst_apply]
  exact softplus_elt _

theorem sp_b1 (x11 : (⟨S4096, .f32⟩ : BufTy).Contents (Elt Ideal)) (i : S4096.Idx) :
    val_main_v15 (F := Ideal) x11 i = softplus (x11 i) := by
  simp only [val_main_v15_apply, val_main_call4_v4_apply, val_main_call4_v3_apply, val_main_call4_v2_apply,
    val_main_call4_v6_apply, val_main_call4_v5_apply, val_main_call4_v11_apply, val_main_call4_v1_apply,
    val_main_call4_v0_apply, val_main_call4_v10_apply, val_main_call4_v9_apply, val_main_call4_v8_apply,
    val_main_call4_v7_apply, val_main_call4_cst_apply]
  exact softplus_elt _

theorem sp_w2 (x14 : (⟨S1024x4096, .f32⟩ : BufTy).Contents (Elt Ideal)) (i : S1024x4096.Idx) :
    val_main_v24 (F := Ideal) x14 i = softplus (x14 i) := by
  simp only [val_main_v24_apply, val_main_call6_v4_apply, val_main_call6_v3_apply, val_main_call6_v2_apply,
    val_main_call6_v6_apply, val_main_call6_v5_apply, val_main_call6_v11_apply, val_main_call6_v1_apply,
    val_main_call6_v0_apply, val_main_call6_v10_apply, val_main_call6_v9_apply, val_main_call6_v8_apply,
    val_main_call6_v7_apply, val_main_call6_cst_apply]
  exact softplus_elt _

theorem sp_b2 (x17 : (⟨S1024, .f32⟩ : BufTy).Contents (Elt Ideal)) (i : S1024.Idx) :
    val_main_v27 (F := Ideal) x17 i = softplus (x17 i) := by
  simp only [val_main_v27_apply, val_main_call7_v4_apply, val_main_call7_v3_apply, val_main_call7_v2_apply,
    val_main_call7_v6_apply, val_main_call7_v5_apply, val_main_call7_v11_apply, val_main_call7_v1_apply,
    val_main_call7_v0_apply, val_main_call7_v10_apply, val_main_call7_v9_apply, val_main_call7_v8_apply,
    val_main_call7_v7_apply, val_main_call7_cst_apply]
  exact softplus_elt _

theorem w0 (x1 x2 x3 : (⟨S4096x1024, .f32⟩ : BufTy).Contents (Elt Ideal)) (q : Fin 4096) (k : Fin 1024) :
    val_main_v2 (F := Ideal) x1 x2 x3 (ix2 q k) = weight (mat x1) (mat x2) (mat x3) q k := by
  rw [val_main_v2_apply, val_main_v1_apply, sp_w0]
  rfl

theorem w0T (x1 x2 x3 : (⟨S4096x1024, .f32⟩ : BufTy).Contents (Elt Ideal)) (k : Fin 1024) (q : Fin 4096) :
    val_main_v6 (F := Ideal) x1 x2 x3 (ix2 k q) = weight (mat x1) (mat x2) (mat x3) q k := by
  have h : idx_main_v6 (ix2 k q) = ix2 q k :=
    funext fun a => match a with | ⟨0, _⟩ => rfl | ⟨1, _⟩ => rfl
  rw [val_main_v6_apply, h, w0]

theorem w1 (x7 x8 x9 : (⟨S4096x4096, .f32⟩ : BufTy).Contents (Elt Ideal)) (q : Fin 4096) (k : Fin 4096) :
    val_main_v14 (F := Ideal) x7 x8 x9 (ix2 q k) = weight (mat x7) (mat x8) (mat x9) q k := by
  rw [val_main_v14_apply, val_main_v13_apply, sp_w1]
  rfl

theorem w1T (x7 x8 x9 : (⟨S4096x4096, .f32⟩ : BufTy).Contents (Elt Ideal)) (k : Fin 4096) (q : Fin 4096) :
    val_main_v18 (F := Ideal) x7 x8 x9 (ix2 k q) = weight (mat x7) (mat x8) (mat x9) q k := by
  have h : idx_main_v18 (ix2 k q) = ix2 q k :=
    funext fun a => match a with | ⟨0, _⟩ => rfl | ⟨1, _⟩ => rfl
  rw [val_main_v18_apply, h, w1]

theorem w2 (x13 x14 x15 : (⟨S1024x4096, .f32⟩ : BufTy).Contents (Elt Ideal)) (q : Fin 1024) (k : Fin 4096) :
    val_main_v26 (F := Ideal) x13 x14 x15 (ix2 q k) = weight (mat x13) (mat x14) (mat x15) q k := by
  rw [val_main_v26_apply, val_main_v25_apply, sp_w2]
  rfl

theorem w2T (x13 x14 x15 : (⟨S1024x4096, .f32⟩ : BufTy).Contents (Elt Ideal)) (k : Fin 4096) (q : Fin 1024) :
    val_main_v30 (F := Ideal) x13 x14 x15 (ix2 k q) = weight (mat x13) (mat x14) (mat x15) q k := by
  have h : idx_main_v30 (ix2 k q) = ix2 q k :=
    funext fun a => match a with | ⟨0, _⟩ => rfl | ⟨1, _⟩ => rfl
  rw [val_main_v30_apply, h, w2]

theorem b0 (x4 x5 x6 : (⟨S4096, .f32⟩ : BufTy).Contents (Elt Ideal)) (q : Fin 4096) :
    val_main_v5 (F := Ideal) x4 x5 x6 (ix1 q) = bias (vec x4) (vec x5) (vec x6) q := by
  rw [val_main_v5_apply, val_main_v4_apply, sp_b0]
  rfl

theorem b0B (x4 x5 x6 : (⟨S4096, .f32⟩ : BufTy).Contents (Elt Ideal)) (p : Fin 8192) (q : Fin 4096) :
    val_main_v9 (F := Ideal) x4 x5 x6 (ix2 p q) = bias (vec x4) (vec x5) (vec x6) q := by
  have h : idx_main_v8 (idx_main_v9 (ix2 p q)) = ix1 q := funext fun a => match a with | ⟨0, _⟩ => rfl
  rw [val_main_v9_apply, val_main_v8_apply, h, b0]

theorem b1 (x10 x11 x12 : (⟨S4096, .f32⟩ : BufTy).Contents (Elt Ideal)) (q : Fin 4096) :
    val_main_v17 (F := Ideal) x10 x11 x12 (ix1 q) = bias (vec x10) (vec x11) (vec x12) q := by
  rw [val_main_v17_apply, val_main_v16_apply, sp_b1]
  rfl

theorem b1B (x10 x11 x12 : (⟨S4096, .f32⟩ : BufTy).Contents (Elt Ideal)) (p : Fin 8192) (q : Fin 4096) :
    val_main_v21 (F := Ideal) x10 x11 x12 (ix2 p q) = bias (vec x10) (vec x11) (vec x12) q := by
  have h : idx_main_v20 (idx_main_v21 (ix2 p q)) = ix1 q := funext fun a => match a with | ⟨0, _⟩ => rfl
  rw [val_main_v21_apply, val_main_v20_apply, h, b1]

theorem b2 (x16 x17 x18 : (⟨S1024, .f32⟩ : BufTy).Contents (Elt Ideal)) (q : Fin 1024) :
    val_main_v29 (F := Ideal) x16 x17 x18 (ix1 q) = bias (vec x16) (vec x17) (vec x18) q := by
  rw [val_main_v29_apply, val_main_v28_apply, sp_b2]
  rfl

theorem b2B (x16 x17 x18 : (⟨S1024, .f32⟩ : BufTy).Contents (Elt Ideal)) (p : Fin 8192) (q : Fin 1024) :
    val_main_v33 (F := Ideal) x16 x17 x18 (ix2 p q) = bias (vec x16) (vec x17) (vec x18) q := by
  have h : idx_main_v32 (idx_main_v33 (ix2 p q)) = ix1 q := funext fun a => match a with | ⟨0, _⟩ => rfl
  rw [val_main_v33_apply, val_main_v32_apply, h, b2]

end Cert.ReferenceIdeal.RefValue

end
-- ==== Proof.RefValue.lean ====
import proofs.«128668_j3307124817925_1_alg».proof.Proof.Gen.ReferenceIdeal.Run
import proofs.«128668_j3307124817925_1_alg».proof.Proof.Gen.ReferenceIdeal.Read
import proofs.«128668_j3307124817925_1_alg».proof.Proof.Spec
import proofs.«128668_j3307124817925_1_alg».proof.Proof.RefLayer

noncomputable section

namespace Cert.ReferenceIdeal.RefValue

open Idealize.ShloMosaic Idealize.ShloMosaic.ValueIdx Cert.ReferenceIdeal Cert.ReferenceIdeal.Gen Cert.ReferenceIdeal.Read
open Cert.BayesMlp

-- The reference's stages for one layer are the specification's dense layer.
theorem layer0 (x0 : (⟨S8192x1024, .f32⟩ : BufTy).Contents (Elt Ideal))
    (x1 x2 x3 : (⟨S4096x1024, .f32⟩ : BufTy).Contents (Elt Ideal))
    (x4 x5 x6 : (⟨S4096, .f32⟩ : BufTy).Contents (Elt Ideal)) (p : Fin 8192) (q : Fin 4096) :
    val_main_v11 (F := Ideal) x0 x1 x2 x3 x4 x5 x6 (ix2 p q)
      = dense relu (mat x0) (weight (mat x1) (mat x2) (mat x3)) (bias (vec x4) (vec x5) (vec x6)) p q := by
  have hdot : val_main_v7 (F := Ideal) x0 x1 x2 x3 (ix2 p q)
      = ∑ k : Fin 1024, mat x0 p k * weight (mat x1) (mat x2) (mat x3) q k := by
    rw [val_main_v7_apply]
    refine Finset.sum_congr rfl fun k _ => ?_
    have hl : lidx_main_v7 (ix2 p q) k = ix2 p k :=
      funext fun a => match a with | ⟨0, _⟩ => rfl | ⟨1, _⟩ => rfl
    have hr : ridx_main_v7 (ix2 p q) k = ix2 k q :=
      funext fun a => match a with | ⟨0, _⟩ => rfl | ⟨1, _⟩ => rfl
    rw [hl, hr, w0T]
  rw [val_main_v11_apply, val_main_v10_apply, hdot, b0B, val_main_call2_v0_apply, val_main_call2_cst_apply,
    Ideal.ofBits_def, Ideal.ofBits_zero_f32]
  rfl

theorem layer1 (x0 : (⟨S8192x1024, .f32⟩ : BufTy).Contents (Elt Ideal))
    (x1 x2 x3 : (⟨S4096x1024, .f32⟩ : BufTy).Contents (Elt Ideal))
    (x4 x5 x6 : (⟨S4096, .f32⟩ : BufTy).Contents (Elt Ideal))
    (x7 x8 x9 : (⟨S4096x4096, .f32⟩ : BufTy).Contents (Elt Ideal))
    (x10 x11 x12 : (⟨S4096, .f32⟩ : BufTy).Contents (Elt Ideal)) (p : Fin 8192) (q : Fin 4096) :
    val_main_v23 (F := Ideal) x0 x1 x2 x3 x4 x5 x6 x7 x8 x9 x10 x11 x12 (ix2 p q)
      = dense relu
          (dense relu (mat x0) (weight (mat x1) (mat x2) (mat x3)) (bias (vec x4) (vec x5) (vec x6)))
          (weight (mat x7) (mat x8) (mat x9)) (bias (vec x10) (vec x11) (vec x12)) p q := by
  have hdot : val_main_v19 (F := Ideal) x0 x1 x2 x3 x4 x5 x6 x7 x8 x9 (ix2 p q)
      = ∑ k : Fin 4096,
          dense relu (mat x0) (weight (mat x1) (mat x2) (mat x3)) (bias (vec x4) (vec x5) (vec x6)) p k
            * weight (mat x7) (mat x8) (mat x9) q k := by
    rw [val_main_v19_apply]
    refine Finset.sum_congr rfl fun k _ => ?_
    have hl : lidx_main_v19 (ix2 p q) k = ix2 p k :=
      funext fun a => match a with | ⟨0, _⟩ => rfl | ⟨1, _⟩ => rfl
    have hr : ridx_main_v19 (ix2 p q) k = ix2 k q :=
      funext fun a => match a with | ⟨0, _⟩ => rfl | ⟨1, _⟩ => rfl
    rw [hl, hr, layer0, w1T]
  rw [val_main_v23_apply, val_main_v22_apply, hdot, b1B, val_main_call5_v0_apply, val_main_call5_cst_apply,
    Ideal.ofBits_def, Ideal.ofBits_zero_f32]
  rfl

theorem layer2 (x0 : (⟨S8192x1024, .f32⟩ : BufTy).Contents (Elt Ideal))
    (x1 x2 x3 : (⟨S4096x1024, .f32⟩ : BufTy).Contents (Elt Ideal))
    (x4 x5 x6 : (⟨S4096, .f32⟩ : BufTy).Contents (Elt Ideal))
    (x7 x8 x9 : (⟨S4096x4096, .f32⟩ : BufTy).Contents (Elt Ideal))
    (x10 x11 x12 : (⟨S4096, .f32⟩ : BufTy).Contents (Elt Ideal))
    (x13 x14 x15 : (⟨S1024x4096, .f32⟩ : BufTy).Contents (Elt Ideal))
    (x16 x17 x18 : (⟨S1024, .f32⟩ : BufTy).Contents (Elt Ideal)) (p : Fin 8192) (q : Fin 1024) :
    val_main_v34 (F := Ideal) x0 x1 x2 x3 x4 x5 x6 x7 x8 x9 x10 x11 x12 x13 x14 x15 x16 x17 x18 (ix2 p q)
      = mlp (mat x0) (mat x1) (mat x2) (mat x3) (vec x4) (vec x5) (vec x6)
          (mat x7) (mat x8) (mat x9) (vec x10) (vec x11) (vec x12)
          (mat x13) (mat x14) (mat x15) (vec x16) (vec x17) (vec x18) p q := by
  have hdot : val_main_v31 (F := Ideal) x0 x1 x2 x3 x4 x5 x6 x7 x8 x9 x10 x11 x12 x13 x14 x15 (ix2 p q)
      = ∑ k : Fin 4096,
          dense relu
            (dense relu (mat x0) (weight (mat x1) (mat x2) (mat x3)) (bias (vec x4) (vec x5) (vec x6)))
            (weight (mat x7) (mat x8) (mat x9)) (bias (vec x10) (vec x11) (vec x12)) p k
            * weight (mat x13) (mat x14) (mat x15) q k := by
    rw [val_main_v31_apply]
    refine Finset.sum_congr rfl fun k _ => ?_
    have hl : lidx_main_v31 (ix2 p q) k = ix2 p k :=
      funext fun a => match a with | ⟨0, _⟩ => rfl | ⟨1, _⟩ => rfl
    have hr : ridx_main_v31 (ix2 p q) k = ix2 k q :=
      funext fun a => match a with | ⟨0, _⟩ => rfl | ⟨1, _⟩ => rfl
    rw [hl, hr, layer1, w2T]
  rw [val_main_v34_apply, hdot, b2B]
  rfl

-- Hence its result is the network.
theorem result_eq (x0 : (⟨S8192x1024, .f32⟩ : BufTy).Contents (Elt Ideal))
    (x1 x2 x3 : (⟨S4096x1024, .f32⟩ : BufTy).Contents (Elt Ideal))
    (x4 x5 x6 : (⟨S4096, .f32⟩ : BufTy).Contents (Elt Ideal))
    (x7 x8 x9 : (⟨S4096x4096, .f32⟩ : BufTy).Contents (Elt Ideal))
    (x10 x11 x12 : (⟨S4096, .f32⟩ : BufTy).Contents (Elt Ideal))
    (x13 x14 x15 : (⟨S1024x4096, .f32⟩ : BufTy).Contents (Elt Ideal))
    (x16 x17 x18 : (⟨S1024, .f32⟩ : BufTy).Contents (Elt Ideal)) (i : S8192x1024.Idx) :
    Cert.ReferenceIdeal.Read.val_main_v34 (F := Ideal) x0 x1 x2 x3 x4 x5 x6 x7 x8 x9 x10 x11 x12 x13 x14 x15 x16 x17 x18 i
      = Cert.BayesMlp.mlp (fun p k => x0 (ValueIdx.ix2 p k))
          (fun q k => x1 (ValueIdx.ix2 q k)) (fun q k => x2 (ValueIdx.ix2 q k)) (fun q k => x3 (ValueIdx.ix2 q k))
          (fun q => x4 (ValueIdx.ix1 q)) (fun q => x5 (ValueIdx.ix1 q)) (fun q => x6 (ValueIdx.ix1 q))
          (fun q k => x7 (ValueIdx.ix2 q k)) (fun q k => x8 (ValueIdx.ix2 q k)) (fun q k => x9 (ValueIdx.ix2 q k))
          (fun q => x10 (ValueIdx.ix1 q)) (fun q => x11 (ValueIdx.ix1 q)) (fun q => x12 (ValueIdx.ix1 q))
          (fun q k => x13 (ValueIdx.ix2 q k)) (fun q k => x14 (ValueIdx.ix2 q k)) (fun q k => x15 (ValueIdx.ix2 q k))
          (fun q => x16 (ValueIdx.ix1 q)) (fun q => x17 (ValueIdx.ix1 q)) (fun q => x18 (ValueIdx.ix1 q)) (i 0) (i 1) := by
  obtain ⟨p, q, rfl⟩ : ∃ (p : Fin 8192) (q : Fin 1024), i = ix2 p q := ⟨i 0, i 1, eq_ix2 i⟩
  exact layer2 x0 x1 x2 x3 x4 x5 x6 x7 x8 x9 x10 x11 x12 x13 x14 x15 x16 x17 x18 p q

end Cert.ReferenceIdeal.RefValue

end
-- ==== Proof.lean ====
import proofs.«128668_j3307124817925_1_alg».proof.Defs
import proofs.«128668_j3307124817925_1_alg».proof.Proof.Gen.Kernel
import proofs.«128668_j3307124817925_1_alg».proof.Proof.Gen.KernelIdeal
import proofs.«128668_j3307124817925_1_alg».proof.Proof.Gen.ReferenceIdeal
import proofs.«128668_j3307124817925_1_alg».proof.Proof.Gen.Pre_finite_inputs
import proofs.«128668_j3307124817925_1_alg».proof.Proof.SameProgram
import proofs.«128668_j3307124817925_1_alg».proof.Proof.FrameIdeal.Kept
import proofs.«128668_j3307124817925_1_alg».proof.Proof.FrameIdeal.L0Value
import proofs.«128668_j3307124817925_1_alg».proof.Proof.FrameIdeal.L1Value
import proofs.«128668_j3307124817925_1_alg».proof.Proof.FrameIdeal.L2Value
import proofs.«128668_j3307124817925_1_alg».proof.Proof.FrameIdeal.Bridge
import proofs.«128668_j3307124817925_1_alg».proof.Proof.RefValue
import Idealize.ShloMosaic.Adequacy
import Idealize.ShloMosaic.Init

noncomputable section

namespace Cert.Proof

open Idealize.ShloMosaic Idealize.ShloMosaic.TcCoe Idealize.SL.Sem

-- The frame is proved once, for any float instance; the word-level program is the same text, so it inherits it.
set_option maxHeartbeats 1600000 in
theorem frame_kernel : Cert.frame_Kernel := fun m ρ _ => by
  rw [defs_eq, main_eq]; exact Cert.KernelIdeal.Layers.frame_all (F := Bits) m ρ

theorem frame_kernelIdeal : Cert.frame_KernelIdeal := fun m ρ _ => Cert.KernelIdeal.Layers.frame_all (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both results are the three-layer network of the launch arrays: blockwise sums over the contraction are the whole sum.
theorem algebraic : Cert.algebraic_KernelIdeal_ReferenceIdeal := by
  intro m ρ m' ρ' _ hagree
  refine ⟨fun c => Cert.KernelIdeal.Layers.W6 (F := Ideal) m c (Proc.devRef .tc Cert.KernelIdeal.main_v11),
    Cert.KernelIdeal.Layers.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v34_eq, h0, h1, h2, h3, h4, h5, h6, h7, h8, h9, h10, h11, h12, h13, h14, h15, h16, h17, h18]
  funext i
  exact (Cert.ReferenceIdeal.RefValue.result_eq _ _ _ _ _ _ _ _ _ _ _ _ _ _ _ _ _ _ _ i).trans
    (Cert.KernelIdeal.Layers.result_value (fun V c p q => Cert.KernelIdeal.Layers.final0 V c p q) (fun V c p q => Cert.KernelIdeal.Layers.final1 V c p q)
      (fun V c p q => Cert.KernelIdeal.Layers.final2 V c p q) m c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
